-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S128 .f32) (main_arg7 : FVec F S128x1 .f32) (main_arg8 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x128 .f32) (main_arg1 : IVec S2x1600000 32) (main_arg2 : IVec S50000 32) (main_arg3 : FVec F S128x128 .f32) (main_arg4 : FVec F S128 .f32) (main_arg5 : FVec F S128x128 .f32) (main_arg6 : FVec F S128 .f32) (main_arg7 : FVec F S128x1 .f32) (main_arg8 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S50000x1 : Shape := ⟨2, ![50000, 1]⟩
abbrev S5000x128 : Shape := ⟨2, ![5000, 128]⟩
abbrev S1600000x128 : Shape := ⟨2, ![1600000, 128]⟩
abbrev S1x128 : Shape := ⟨2, ![1, 128]⟩
abbrev S5000x1 : Shape := ⟨2, ![5000, 1]⟩
abbrev S1x1 : Shape := ⟨2, ![1, 1]⟩

abbrev nBuf : Space → Nat
  | .hbm => 142
  | .vmem => 62
  | .smem => 0
  | _ => 0

abbrev hbmTy0_0 (i : Nat) : BufTy := match i % 128 with
  | 0 => ⟨S50000x128, .f32⟩
  | 1 => ⟨S2x1600000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x1, .f32⟩
  | 8 => ⟨S1, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S1600000, .f32⟩
  | 15 => ⟨S_, .f32⟩
  | 16 => ⟨S50000, .f32⟩
  | 17 => ⟨S1600000x1, .i32⟩
  | 18 => ⟨S50000, .f32⟩
  | 19 => ⟨S_, .f32⟩
  | 20 => ⟨S50000, .f32⟩
  | 21 => ⟨S50000, .f32⟩
  | 22 => ⟨S50000, .f32⟩
  | 23 => ⟨S50000, .f32⟩
  | 24 => ⟨S50000x1, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S1600000, .f32⟩
  | 44 => ⟨S1600000x1, .f32⟩
  | 45 => ⟨S50000x128, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x128, .f32⟩
  | 55 => ⟨S1600000x128, .f32⟩
  | 56 => ⟨S1600000x128, .f32⟩
  | 57 => ⟨S_, .f32⟩
  | 58 => ⟨S50000x128, .f32⟩
  | 59 => ⟨S1600000x1, .i32⟩
  | 60 => ⟨S50000x128, .f32⟩
  | 61 => ⟨S1x128, .f32⟩
  | 62 => ⟨S50000x128, .f32⟩
  | 63 => ⟨S50000x128, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x128, .f32⟩
  | 73 => ⟨S1600000x128, .f32⟩
  | 74 => ⟨S1600000x128, .f32⟩
  | 75 => ⟨S_, .f32⟩
  | 76 => ⟨S50000x128, .f32⟩
  | 77 => ⟨S1600000x1, .i32⟩
  | 78 => ⟨S50000x128, .f32⟩
  | 79 => ⟨S1x128, .f32⟩
  | 80 => ⟨S50000x128, .f32⟩
  | 81 => ⟨S50000x128, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000x128, .f32⟩
  | 91 => ⟨S1600000x128, .f32⟩
  | 92 => ⟨S1600000x128, .f32⟩
  | 93 => ⟨S_, .f32⟩
  | 94 => ⟨S50000x128, .f32⟩
  | 95 => ⟨S1600000x1, .i32⟩
  | 96 => ⟨S50000x128, .f32⟩
  | 97 => ⟨S1x128, .f32⟩
  | 98 => ⟨S50000x128, .f32⟩
  | 99 => ⟨S50000x128, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x128, .f32⟩
  | 109 => ⟨S1600000x128, .f32⟩
  | 110 => ⟨S1600000x128, .f32⟩
  | 111 => ⟨S_, .f32⟩
  | 112 => ⟨S50000x128, .f32⟩
  | 113 => ⟨S1600000x1, .i32⟩
  | 114 => ⟨S50000x128, .f32⟩
  | 115 => ⟨S1x128, .f32⟩
  | 116 => ⟨S50000x128, .f32⟩
  | 117 => ⟨S50000x1, .i32⟩
  | 118 => ⟨S128, .i32⟩
  | 119 => ⟨S1x128, .i32⟩
  | 120 => ⟨S50000x128, .i32⟩
  | 121 => ⟨S50000x128, .i32⟩
  | 122 => ⟨S50000x128, .i1⟩
  | 123 => ⟨S50000x128, .bf16⟩
  | 124 => ⟨S128x128, .f32⟩
  | 125 => ⟨S_, .f32⟩
  | 126 => ⟨S50000, .f32⟩
  | 127 => ⟨S_, .f32⟩
  | _ => ⟨S50000x128, .f32⟩

abbrev hbmTy0_1 (i : Nat) : BufTy := match i % 128 with
  | 0 => ⟨S128, .f32⟩
  | 1 => ⟨S50000x1, .i32⟩
  | 2 => ⟨S128, .f32⟩
  | 3 => ⟨S_, .f32⟩
  | 4 => ⟨S_, .f32⟩
  | 5 => ⟨S128, .f32⟩
  | 6 => ⟨S128, .f32⟩
  | 7 => ⟨S128x1, .f32⟩
  | 8 => ⟨S128x128, .f32⟩
  | 9 => ⟨S128x128, .f32⟩
  | 10 => ⟨S128x1, .f32⟩
  | 11 => ⟨S1x1, .f32⟩
  | 12 => ⟨S128x1, .f32⟩
  | 13 => ⟨S128x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x1, .f32⟩
  | .local _ .vmem, ⟨38, _⟩ => ⟨S5000x1, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x1, .f32⟩
  | .local _ .vmem, ⟨52, _⟩ => ⟨S5000x1, .f32⟩
  | .local _ .vmem, ⟨53, _⟩ => ⟨S1x128, .f32⟩
  | .local _ .vmem, ⟨54, _⟩ => ⟨S5000x128, .f32⟩
  | .local _ .vmem, ⟨55, _⟩ => ⟨S5000x128, .f32⟩
  | .local _ .vmem, ⟨56, _⟩ => ⟨S5000x128, .bf16⟩
  | .local _ .vmem, ⟨57, _⟩ => ⟨S5000x128, .bf16⟩
  | .local _ .vmem, ⟨58, _⟩ => ⟨S5000x128, .f32⟩
  | .local _ .vmem, ⟨59, _⟩ => ⟨S5000x128, .f32⟩
  | .local _ .vmem, ⟨60, _⟩ => ⟨S128x128, .f32⟩
  | .local _ .vmem, ⟨61, _⟩ => ⟨S128x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_8 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_11 : Ref sig .tc := ⟨.hbm, 82, rfl⟩
abbrev main_v60 : Ref sig .tc := ⟨.hbm, 83, rfl⟩
abbrev main_v61 : Ref sig .tc := ⟨.hbm, 84, rfl⟩
abbrev main_c_12 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_13 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_c_14 : Ref sig .tc := ⟨.hbm, 100, rfl⟩
abbrev main_v75 : Ref sig .tc := ⟨.hbm, 101, rfl⟩
abbrev main_v76 : Ref sig .tc := ⟨.hbm, 102, rfl⟩
abbrev main_c_15 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_16 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_cst_17 : Ref sig .tc := ⟨.hbm, 125, rfl⟩
abbrev main_v97 : Ref sig .tc := ⟨.hbm, 126, rfl⟩
abbrev main_cst_18 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_19 : Ref sig .tc := ⟨.hbm, 131, rfl⟩
abbrev main_call0_v0 : Ref sig .tc := ⟨.hbm, 132, rfl⟩
abbrev main_call0_v1 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg1_1 : Ref sig .tc := ⟨.vmem, 50, rfl⟩
abbrev cc7_stg2_0 : Ref sig .tc := ⟨.vmem, 51, rfl⟩
abbrev cc7_stg2_1 : Ref sig .tc := ⟨.vmem, 52, rfl⟩
abbrev cc7_stg3_0 : Ref sig .tc := ⟨.vmem, 53, rfl⟩
abbrev cc7_stg4_0 : Ref sig .tc := ⟨.vmem, 54, rfl⟩
abbrev cc7_stg4_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg1_1 : Ref sig .tc := ⟨.vmem, 59, rfl⟩
abbrev cc8_stg2_0 : Ref sig .tc := ⟨.vmem, 60, rfl⟩
abbrev cc8_scratch0 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc7_sem0_0 : DmaSem sig := 47
abbrev cc7_sem0_1 : DmaSem sig := 48
abbrev cc7_sem1_0 : DmaSem sig := 49
abbrev cc7_sem1_1 : DmaSem sig := 50
abbrev cc7_sem2_0 : DmaSem sig := 51
abbrev cc7_sem2_1 : DmaSem sig := 52
abbrev cc7_sem3_0 : DmaSem sig := 53
abbrev cc7_sem4_0 : DmaSem sig := 54
abbrev cc7_sem4_1 : DmaSem sig := 55
abbrev cc8_sem0_0 : DmaSem sig := 56
abbrev cc8_sem0_1 : DmaSem sig := 57
abbrev cc8_sem1_0 : DmaSem sig := 58
abbrev cc8_sem1_1 : DmaSem sig := 59
abbrev cc8_sem2_0 : DmaSem sig := 60

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![10], ![false]⟩

def k8_cond2 (i : grid8.Coords) : BitVec 1 :=
  let arg0 : BitVec 32 := BitVec.ofNat 32 (i 0).val
  let c9_i32 : BitVec 32 := 9#32
  let v14 : BitVec 1 := Scalar.cmpi .eq arg0 c9_i32
  let v15 : BitVec 32 := Scalar.extui v14
  let c0_i32_8 : BitVec 32 := 0#32
  let v16 : BitVec 1 := Scalar.cmpi .ne v15 c0_i32_8
  v16

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x128 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  shapeCasts_S50000_S50000x1 : S50000.ShapeCasts S50000x1
  shapeCasts_S1600000_S1600000x1 : S1600000.ShapeCasts S1600000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  shapeCasts_S128x128_S128x128 : S128x128.ShapeCasts S128x128
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S5000x128_S128x128_S5000x128_1_0_0_1_n_n_wf : DotDims.WF S5000x128 S128x128 S5000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S5000x128_S128x128_0_0_1_1_n_n_wf : DotDims.WF S5000x128 S5000x128 S128x128 [0] [0] [1] [1] [] []
  scatter_S128_S50000x1_S50000_n_0_0_1_wf : ScatterDims.WF S128 S50000x1 S50000 [] [0] [0] 1
  dot_S128x128_S128x1_S128x1_1_0_0_1_n_n_wf : DotDims.WF S128x128 S128x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S50000x128.size a
  hwx7_1 : ∀ i : grid7.Coords, EltTy.bits .f32 = 32 ∨ (Rect.block (s := S50000x128) S5000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S50000x1.size a
  hwx7_2 : ∀ i : grid7.Coords, EltTy.bits .f32 = 32 ∨ (Rect.block (s := S50000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x128.size a ≤ S50000x128.size a
  hwx7_4 : ∀ i : grid7.Coords, EltTy.bits .f32 = 32 ∨ (Rect.block (s := S50000x128) S5000x128.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .bf16 = 32 ∨ (Rect.block (s := S50000x128) S5000x128.size (cc8_transform_0 i) (hinb8_0 i)).WholeWords (EltTy.packing .bf16)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S50000x128.size a
  hwx8_1 : ∀ i : grid8.Coords, EltTy.bits .f32 = 32 ∨ (Rect.block (s := S50000x128) S5000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v58) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v71) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v59) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v72) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v73) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v73) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg5) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v74) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v86) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v74) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v12) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v87) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v88) S5000x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v95) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v88) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v96) S128x128.size cc8_transform_2 reads8_2 true true 1 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev idle8 : Fin 3 → grid8.Coords → Bool := fun | 0 => fun _ => false | 1 => fun _ => false | 2 => fun i => !(k8_cond2 i == 1#1) | ⟨_ + 3, h⟩ => absurd h (Nat.not_lt.2 (Nat.le_add_left _ _))

class Facts : Prop extends Facts₀ where

variable [Facts]
-- ==== ReferenceIdeal.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S50000x1 : Shape := ⟨2, ![50000, 1]⟩
abbrev S1x128 : Shape := ⟨2, ![1, 128]⟩
abbrev S1x1 : Shape := ⟨2, ![1, 1]⟩

abbrev nBuf : Space → Nat
  | .hbm => 232
  | .vmem => 0
  | .smem => 0
  | _ => 0

abbrev hbmTy0_0 (i : Nat) : BufTy := match i % 128 with
  | 0 => ⟨S50000x128, .f32⟩
  | 1 => ⟨S2x1600000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x1, .f32⟩
  | 8 => ⟨S1, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S1600000, .f32⟩
  | 15 => ⟨S_, .f32⟩
  | 16 => ⟨S50000, .f32⟩
  | 17 => ⟨S1600000x1, .i32⟩
  | 18 => ⟨S50000, .f32⟩
  | 19 => ⟨S_, .f32⟩
  | 20 => ⟨S50000, .f32⟩
  | 21 => ⟨S50000, .f32⟩
  | 22 => ⟨S50000, .f32⟩
  | 23 => ⟨S50000x128, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x128, .f32⟩
  | 52 => ⟨S1600000x1, .f32⟩
  | 53 => ⟨S1600000x128, .f32⟩
  | 54 => ⟨S1600000x128, .f32⟩
  | 55 => ⟨S_, .f32⟩
  | 56 => ⟨S50000x128, .f32⟩
  | 57 => ⟨S1600000x1, .i32⟩
  | 58 => ⟨S50000x128, .f32⟩
  | 59 => ⟨S50000, .f32⟩
  | 60 => ⟨S50000x1, .f32⟩
  | 61 => ⟨S50000x128, .f32⟩
  | 62 => ⟨S50000x128, .f32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S50000x128, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000, .f32⟩
  | 89 => ⟨S1600000, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x128, .f32⟩
  | 99 => ⟨S1600000x1, .f32⟩
  | 100 => ⟨S1600000x128, .f32⟩
  | 101 => ⟨S1600000x128, .f32⟩
  | 102 => ⟨S_, .f32⟩
  | 103 => ⟨S50000x128, .f32⟩
  | 104 => ⟨S1600000x1, .i32⟩
  | 105 => ⟨S50000x128, .f32⟩
  | 106 => ⟨S50000, .f32⟩
  | 107 => ⟨S50000x1, .f32⟩
  | 108 => ⟨S50000x128, .f32⟩
  | 109 => ⟨S50000x128, .f32⟩
  | 110 => ⟨S50000x128, .f32⟩
  | 111 => ⟨S1x128, .f32⟩
  | 112 => ⟨S50000x128, .f32⟩
  | 113 => ⟨S50000x128, .f32⟩
  | 114 => ⟨S_, .f32⟩
  | 115 => ⟨S50000x128, .f32⟩
  | 116 => ⟨S50000x128, .f32⟩
  | 117 => ⟨S50000x128, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000, .f32⟩
  | 127 => ⟨S_, .i32⟩
  | _ => ⟨S50000x128, .f32⟩

abbrev hbmTy0_1 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000, .f32⟩
  | 8 => ⟨S1600000, .f32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000x128, .f32⟩
  | 18 => ⟨S1600000x1, .f32⟩
  | 19 => ⟨S1600000x128, .f32⟩
  | 20 => ⟨S1600000x128, .f32⟩
  | 21 => ⟨S_, .f32⟩
  | 22 => ⟨S50000x128, .f32⟩
  | 23 => ⟨S1600000x1, .i32⟩
  | 24 => ⟨S50000x128, .f32⟩
  | 25 => ⟨S50000, .f32⟩
  | 26 => ⟨S50000x1, .f32⟩
  | 27 => ⟨S50000x128, .f32⟩
  | 28 => ⟨S50000x128, .f32⟩
  | 29 => ⟨S50000x128, .f32⟩
  | 30 => ⟨S1x128, .f32⟩
  | 31 => ⟨S50000x128, .f32⟩
  | 32 => ⟨S50000x128, .f32⟩
  | 33 => ⟨S_, .f32⟩
  | 34 => ⟨S50000x128, .f32⟩
  | 35 => ⟨S50000x128, .f32⟩
  | 36 => ⟨S50000x128, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000, .f32⟩
  | 55 => ⟨S1600000, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x128, .f32⟩
  | 65 => ⟨S1600000x1, .f32⟩
  | 66 => ⟨S1600000x128, .f32⟩
  | 67 => ⟨S1600000x128, .f32⟩
  | 68 => ⟨S_, .f32⟩
  | 69 => ⟨S50000x128, .f32⟩
  | 70 => ⟨S1600000x1, .i32⟩
  | 71 => ⟨S50000x128, .f32⟩
  | 72 => ⟨S50000, .f32⟩
  | 73 => ⟨S50000x1, .f32⟩
  | 74 => ⟨S50000x128, .f32⟩
  | 75 => ⟨S50000x128, .f32⟩
  | 76 => ⟨S50000x128, .f32⟩
  | 77 => ⟨S1x128, .f32⟩
  | 78 => ⟨S50000x128, .f32⟩
  | 79 => ⟨S50000x128, .f32⟩
  | 80 => ⟨S_, .f32⟩
  | 81 => ⟨S50000x128, .f32⟩
  | 82 => ⟨S50000x128, .f32⟩
  | 83 => ⟨S_, .f32⟩
  | 84 => ⟨S128x128, .f32⟩
  | 85 => ⟨S50000x1, .i32⟩
  | 86 => ⟨S128x128, .f32⟩
  | 87 => ⟨S_, .f32⟩
  | 88 => ⟨S50000, .f32⟩
  | 89 => ⟨S_, .f32⟩
  | 90 => ⟨S128, .f32⟩
  | 91 => ⟨S50000x1, .i32⟩
  | 92 => ⟨S128, .f32⟩
  | 93 => ⟨S_, .f32⟩
  | 94 => ⟨S_, .f32⟩
  | 95 => ⟨S128, .f32⟩
  | 96 => ⟨S128, .f32⟩
  | 97 => ⟨S128x1, .f32⟩
  | 98 => ⟨S128x128, .f32⟩
  | 99 => ⟨S128x128, .f32⟩
  | 100 => ⟨S128x1, .f32⟩
  | 101 => ⟨S1x1, .f32⟩
  | 102 => ⟨S128x1, .f32⟩
  | 103 => ⟨S128x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_c_8 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_10 : Ref sig .tc := ⟨.hbm, 80, rfl⟩
abbrev main_v57 : Ref sig .tc := ⟨.hbm, 81, rfl⟩
abbrev main_v58 : Ref sig .tc := ⟨.hbm, 82, rfl⟩
abbrev main_c_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_12 : Ref sig .tc := ⟨.hbm, 90, rfl⟩
abbrev main_v65 : Ref sig .tc := ⟨.hbm, 91, rfl⟩
abbrev main_v66 : Ref sig .tc := ⟨.hbm, 92, rfl⟩
abbrev main_c_13 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_call1_cst : Ref sig .tc := ⟨.hbm, 114, rfl⟩
abbrev main_call1_v0 : Ref sig .tc := ⟨.hbm, 115, rfl⟩
abbrev main_v86 : Ref sig .tc := ⟨.hbm, 116, rfl⟩
abbrev main_v87 : Ref sig .tc := ⟨.hbm, 117, rfl⟩
abbrev main_c_15 : Ref sig .tc := ⟨.hbm, 118, rfl⟩
abbrev main_v88 : Ref sig .tc := ⟨.hbm, 119, rfl⟩
abbrev main_v89 : Ref sig .tc := ⟨.hbm, 120, rfl⟩
abbrev main_c_16 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_c_17 : Ref sig .tc := ⟨.hbm, 127, rfl⟩
abbrev main_v95 : Ref sig .tc := ⟨.hbm, 128, rfl⟩
abbrev main_v96 : Ref sig .tc := ⟨.hbm, 129, rfl⟩
abbrev main_c_18 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_c_19 : Ref sig .tc := ⟨.hbm, 137, rfl⟩
abbrev main_v103 : Ref sig .tc := ⟨.hbm, 138, rfl⟩
abbrev main_v104 : Ref sig .tc := ⟨.hbm, 139, rfl⟩
abbrev main_c_20 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_21 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_call2_cst : Ref sig .tc := ⟨.hbm, 161, rfl⟩
abbrev main_call2_v0 : Ref sig .tc := ⟨.hbm, 162, rfl⟩
abbrev main_v124 : Ref sig .tc := ⟨.hbm, 163, rfl⟩
abbrev main_v125 : Ref sig .tc := ⟨.hbm, 164, rfl⟩
abbrev main_c_22 : Ref sig .tc := ⟨.hbm, 165, rfl⟩
abbrev main_v126 : Ref sig .tc := ⟨.hbm, 166, rfl⟩
abbrev main_v127 : Ref sig .tc := ⟨.hbm, 167, rfl⟩
abbrev main_c_23 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_c_24 : Ref sig .tc := ⟨.hbm, 174, rfl⟩
abbrev main_v133 : Ref sig .tc := ⟨.hbm, 175, rfl⟩
abbrev main_v134 : Ref sig .tc := ⟨.hbm, 176, rfl⟩
abbrev main_c_25 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_c_26 : Ref sig .tc := ⟨.hbm, 184, rfl⟩
abbrev main_v141 : Ref sig .tc := ⟨.hbm, 185, rfl⟩
abbrev main_v142 : Ref sig .tc := ⟨.hbm, 186, rfl⟩
abbrev main_c_27 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_cst_28 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_call3_cst : Ref sig .tc := ⟨.hbm, 208, rfl⟩
abbrev main_call3_v0 : Ref sig .tc := ⟨.hbm, 209, rfl⟩
abbrev main_v162 : Ref sig .tc := ⟨.hbm, 210, rfl⟩
abbrev main_cst_29 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_cst_30 : Ref sig .tc := ⟨.hbm, 215, rfl⟩
abbrev main_v166 : Ref sig .tc := ⟨.hbm, 216, rfl⟩
abbrev main_cst_31 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_cst_32 : Ref sig .tc := ⟨.hbm, 221, rfl⟩
abbrev main_call4_v0 : Ref sig .tc := ⟨.hbm, 222, rfl⟩
abbrev main_call4_v1 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128x128 : S_.BroadcastsInDim S128x128 (![] : Fin 0 → Fin S128x128.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  scatter_S50000_S1600000x1_S1600000_n_0_0_1_wf : ScatterDims.WF S50000 S1600000x1 S1600000 [] [0] [0] 1
  dot_S50000x128_S128x128_S50000x128_1_0_0_1_n_n_wf : DotDims.WF S50000x128 S128x128 S50000x128 [1] [0] [0] [1] [] []
  gather_S50000_S1600000x1_S1600000_n_0_n_n_0_1_1_wf : GatherDims.WF S50000 S1600000x1 S1600000 [] [0] [] [0] [] 1 ![1]
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S128x128_S50000x1_S50000x128_1_0_0_1_wf : ScatterDims.WF S128x128 S50000x1 S50000x128 [1] [0] [0] 1
  scatter_S128_S50000x1_S50000_n_0_0_1_wf : ScatterDims.WF S128 S50000x1 S50000 [] [0] [0] 1
  dot_S128x128_S128x1_S128x1_1_0_0_1_n_n_wf : DotDims.WF S128x128 S128x1 S128x1 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf

class Facts : Prop extends Facts₀ where

variable [Facts]
-- ==== Proof.KReg0.lean ====
import proofs.«429942_j15479062135041_1_alg».proof.Proof.Gen.Kernel.Launch
import proofs.«429942_j15479062135041_1_alg».proof.Proof.Gen.Kernel.Skeleton
import proofs.«429942_j15479062135041_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_a : Rect S5000x128 := Rect.unit (s := S5000x128) ![0, 0] S5000x128.size inb_S5000x128_S5000x128_0_0
abbrev r0_b : Rect S128x128 := Rect.unit (s := S128x128) ![0, 0] S128x128.size inb_S128x128_S128x128_0_0

def out0_2 (x0 : Vec F S5000x128 .f32) (x1 : Vec F S128x128 .f32) : Vec F S5000x128 .f32 :=
  View.canon [⟨r0_a, k0_pay1 (View.ld x0 r0_a) (View.ld x1 r0_b)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

theorem cover0_2 (p0 : Vec F S5000x128 .f32) (y : S5000x128.Idx) :
    ∃ pc ∈ ([⟨r0_a, p0⟩] : List (View.Piece (Elt F) S5000x128 .f32)), y ∈ pc.1.set :=
  View.cover_of_tiled [⟨r0_a, p0⟩] S5000x128.size (by rfl) y

set_option maxHeartbeats 1000000 in

theorem sound_kernel0 (c : Dev nD) (E : Set ℕ) (i : grid0.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KReg1.lean ====
import proofs.«429942_j15479062135041_1_alg».proof.Proof.Gen.Kernel.Launch
import proofs.«429942_j15479062135041_1_alg».proof.Proof.Gen.Kernel.Skeleton
import proofs.«429942_j15479062135041_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S5000x128 := Rect.unit (s := S5000x128) ![0, 0] S5000x128.size inb_S5000x128_S5000x128_0_0
abbrev r1_c : Rect S5000x1 := Rect.unit (s := S5000x1) ![0, 0] S5000x1.size inb_S5000x1_S5000x1_0_0
abbrev r1_d : Rect S1x128 := Rect.unit (s := S1x128) ![0, 0] S1x128.size inb_S1x128_S1x128_0_0

def out1_4 (x0 : Vec F S5000x128 .f32) (x1 : Vec F S5000x128 .f32) (x2 : Vec F S5000x1 .f32) (x3 : Vec F S1x128 .f32) : Vec F S5000x128 .f32 :=
  View.canon [⟨r1_a, k1_pay1 (View.ld x0 r1_a) (View.ld x1 r1_a) (View.ld x2 r1_c) (View.ld x3 r1_d)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

theorem cover1_4 (p0 : Vec F S5000x128 .f32) (y : S5000x128.Idx) :
    ∃ pc ∈ ([⟨r1_a, p0⟩] : List (View.Piece (Elt F) S5000x128 .f32)), y ∈ pc.1.set :=
  View.cover_of_tiled [⟨r1_a, p0⟩] S5000x128.size (by rfl) y

set_option maxHeartbeats 1000000 in

theorem sound_kernel1 (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x128 .f32) (harg4 : arg4.IsWhole)
    (arg5 : Memref sig .tc .vmem S5000x128 .f32) (harg5 : arg5.IsWhole)
    (x0 : Vec F S5000x128 .f32) (x1 : Vec F S5000x128 .f32) (x2 : Vec F S5000x1 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc1__finalize_kernel i arg1 harg1 arg2 harg2 arg3 harg3 arg4 harg4 arg5 harg5) K := by
  simp only [cc1__finalize_kernel_eq_skeleton]; unfold cc1__finalize_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KReg2.lean ====
import proofs.«429942_j15479062135041_1_alg».proof.Proof.Gen.Kernel.Launch
import proofs.«429942_j15479062135041_1_alg».proof.Proof.Gen.Kernel.Skeleton
import proofs.«429942_j15479062135041_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_a : Rect S5000x128 := Rect.unit (s := S5000x128) ![0, 0] S5000x128.size inb_S5000x128_S5000x128_0_0
abbrev r2_b : Rect S128x128 := Rect.unit (s := S128x128) ![0, 0] S128x128.size inb_S128x128_S128x128_0_0

def out2_2 (x0 : Vec F S5000x128 .f32) (x1 : Vec F S128x128 .f32) : Vec F S5000x128 .f32 :=
  View.canon [⟨r2_a, k2_pay1 (View.ld x0 r2_a) (View.ld x1 r2_b)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

theorem cover2_2 (p0 : Vec F S5000x128 .f32) (y : S5000x128.Idx) :
    ∃ pc ∈ ([⟨r2_a, p0⟩] : List (View.Piece (Elt F) S5000x128 .f32)), y ∈ pc.1.set :=
  View.cover_of_tiled [⟨r2_a, p0⟩] S5000x128.size (by rfl) y

set_option maxHeartbeats 1000000 in

theorem sound_kernel2 (c : Dev nD) (E : Set ℕ) (i : grid2.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KReg3.lean ====
import proofs.«429942_j15479062135041_1_alg».proof.Proof.KReg1
import proofs.«429942_j15479062135041_1_alg».proof.Proof.Gen.Kernel.Launch
import proofs.«429942_j15479062135041_1_alg».proof.Proof.Gen.Kernel.Skeleton
import proofs.«429942_j15479062135041_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out1_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out1_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)

theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)

theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)

theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)

/-- Region 3 runs the same body as region 1, so it has the same triple. -/
theorem sound_kernel3 (c : Dev nD) (E : Set ℕ) (i : grid3.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x128 .f32) (harg4 : arg4.IsWhole)
    (arg5 : Memref sig .tc .vmem S5000x128 .f32) (harg5 : arg5.IsWhole)
    (x0 : Vec F S5000x128 .f32) (x1 : Vec F S5000x128 .f32) (x2 : Vec F S5000x1 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc3__finalize_kernel i arg1 harg1 arg2 harg2 arg3 harg3 arg4 harg4 arg5 harg5) K :=
  sound_kernel1 c E i arg1 harg1 arg2 harg2 arg3 harg3 arg4 harg4 arg5 harg5 x0 x1 x2 x3 K

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KReg4.lean ====
import proofs.«429942_j15479062135041_1_alg».proof.Proof.KReg2
import proofs.«429942_j15479062135041_1_alg».proof.Proof.Gen.Kernel.Launch
import proofs.«429942_j15479062135041_1_alg».proof.Proof.Gen.Kernel.Skeleton
import proofs.«429942_j15479062135041_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out2_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out2_2 (iblk4 V c 0 t) (iblk4 V c 1 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)

theorem before4_1 (c : Dev nD) (t : Fin cfg4.N) (d) : (dat4 V c).before 1 t d = iblk4 V c 1 t :=
  ((dat4 V c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)

/-- Region 4 runs the same body as region 2, so it has the same triple. -/
theorem sound_kernel4 (c : Dev nD) (E : Set ℕ) (i : grid4.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc4__linear_kernel i arg1 harg1 arg2 harg2 arg3 harg3) K :=
  sound_kernel2 c E i arg1 harg1 arg2 harg2 arg3 harg3 x0 x1 K

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KReg5.lean ====
import proofs.«429942_j15479062135041_1_alg».proof.Proof.KReg1
import proofs.«429942_j15479062135041_1_alg».proof.Proof.Gen.Kernel.Launch
import proofs.«429942_j15479062135041_1_alg».proof.Proof.Gen.Kernel.Skeleton
import proofs.«429942_j15479062135041_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out1_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = out1_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)

theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)

theorem before5_2 (c : Dev nD) (t : Fin cfg5.N) (d) : (dat5 V c).before 2 t d = iblk5 V c 2 t :=
  ((dat5 V c).before_in_eq_fetched 2 rfl (fun _ => rfl) (fun _ _ _ => rfl)
    (fun t => by rw [after5_2]; unfold Dat.blockOf iblk5; rw [A_eq5]; try rfl) t d).trans
    (by unfold Dat.fetched Dat.blockOf iblk5; rw [A_eq5]; try rfl)

theorem before5_3 (c : Dev nD) (t : Fin cfg5.N) (d) : (dat5 V c).before 3 t d = iblk5 V c 3 t :=
  ((dat5 V c).before_in_eq_fetched 3 rfl (fun _ => rfl) (fun _ _ _ => rfl)
    (fun t => by rw [after5_3]; unfold Dat.blockOf iblk5; rw [A_eq5]; try rfl) t d).trans
    (by unfold Dat.fetched Dat.blockOf iblk5; rw [A_eq5]; try rfl)

/-- Region 5 runs the same body as region 1, so it has the same triple. -/
theorem sound_kernel5 (c : Dev nD) (E : Set ℕ) (i : grid5.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x128 .f32) (harg4 : arg4.IsWhole)
    (arg5 : Memref sig .tc .vmem S5000x128 .f32) (harg5 : arg5.IsWhole)
    (x0 : Vec F S5000x128 .f32) (x1 : Vec F S5000x128 .f32) (x2 : Vec F S5000x1 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc5__finalize_kernel i arg1 harg1 arg2 harg2 arg3 harg3 arg4 harg4 arg5 harg5) K :=
  sound_kernel1 c E i arg1 harg1 arg2 harg2 arg3 harg3 arg4 harg4 arg5 harg5 x0 x1 x2 x3 K

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KReg6.lean ====
import proofs.«429942_j15479062135041_1_alg».proof.Proof.KReg2
import proofs.«429942_j15479062135041_1_alg».proof.Proof.Gen.Kernel.Launch
import proofs.«429942_j15479062135041_1_alg».proof.Proof.Gen.Kernel.Skeleton
import proofs.«429942_j15479062135041_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out2_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out2_2 (iblk6 V c 0 t) (iblk6 V c 1 t) := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl)
      (fun t => by rw [after6_0]; unfold Dat.blockOf iblk6; rw [A_eq6]; try rfl) t d).trans
    (by unfold Dat.fetched Dat.blockOf iblk6; rw [A_eq6]; try rfl)

theorem before6_1 (c : Dev nD) (t : Fin cfg6.N) (d) : (dat6 V c).before 1 t d = iblk6 V c 1 t :=
  ((dat6 V c).before_in_eq_fetched 1 rfl (fun _ => rfl) (fun _ _ _ => rfl)
      (fun t => by rw [after6_1]; unfold Dat.blockOf iblk6; rw [A_eq6]; try rfl) t d).trans
    (by unfold Dat.fetched Dat.blockOf iblk6; rw [A_eq6]; try rfl)

/-- Region 6 runs the same body as region 2, so it has the same triple. -/
theorem sound_kernel6 (c : Dev nD) (E : Set ℕ) (i : grid6.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc6__linear_kernel i arg1 harg1 arg2 harg2 arg3 harg3) K :=
  sound_kernel2 c E i arg1 harg1 arg2 harg2 arg3 harg3 x0 x1 K

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.KReg7.lean ====
import proofs.«429942_j15479062135041_1_alg».proof.Proof.KReg1
import proofs.«429942_j15479062135041_1_alg».proof.Proof.Gen.Kernel.Launch
import proofs.«429942_j15479062135041_1_alg».proof.Proof.Gen.Kernel.Skeleton
import proofs.«429942_j15479062135041_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out1_4 (iblk7 V c 0 t) (iblk7 V c 1 t) (iblk7 V c 2 t) (iblk7 V c 3 t)
  Φ _ := Pipeline.ΦA spec7 c
  q _ := fullShare
  owed _ := 0

theorem A_eq7 (c : Dev nD) (w : Fin cfg7.W) : (dat7 V c).A w = V c (Pipeline.arrRef spec7 w) := by dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) :
    (dat7 V c).after 4 t = out1_4 (iblk7 V c 0 t) (iblk7 V c 1 t) (iblk7 V c 2 t) (iblk7 V c 3 t) := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl)
    (fun t => by rw [after7_0]; unfold Dat.blockOf iblk7; rw [A_eq7]; try rfl) t d).trans
    (by unfold Dat.fetched Dat.blockOf iblk7; rw [A_eq7]; try rfl)

theorem before7_1 (c : Dev nD) (t : Fin cfg7.N) (d) : (dat7 V c).before 1 t d = iblk7 V c 1 t :=
  ((dat7 V c).before_in_eq_fetched 1 rfl (fun _ => rfl) (fun _ _ _ => rfl)
    (fun t => by rw [after7_1]; unfold Dat.blockOf iblk7; rw [A_eq7]; try rfl) t d).trans
    (by unfold Dat.fetched Dat.blockOf iblk7; rw [A_eq7]; try rfl)

theorem before7_2 (c : Dev nD) (t : Fin cfg7.N) (d) : (dat7 V c).before 2 t d = iblk7 V c 2 t :=
  ((dat7 V c).before_in_eq_fetched 2 rfl (fun _ => rfl) (fun _ _ _ => rfl)
    (fun t => by rw [after7_2]; unfold Dat.blockOf iblk7; rw [A_eq7]; try rfl) t d).trans
    (by unfold Dat.fetched Dat.blockOf iblk7; rw [A_eq7]; try rfl)

theorem before7_3 (c : Dev nD) (t : Fin cfg7.N) (d) : (dat7 V c).before 3 t d = iblk7 V c 3 t :=
  ((dat7 V c).before_in_eq_fetched 3 rfl (fun _ => rfl) (fun _ _ _ => rfl)
    (fun t => by rw [after7_3]; unfold Dat.blockOf iblk7; rw [A_eq7]; try rfl) t d).trans
    (by unfold Dat.fetched Dat.blockOf iblk7; rw [A_eq7]; try rfl)

/-- Region 7 runs the same body as region 1, so it has the same triple. -/
theorem sound_kernel7 (c : Dev nD) (E : Set ℕ) (i : grid7.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x128 .f32) (harg4 : arg4.IsWhole)
    (arg5 : Memref sig .tc .vmem S5000x128 .f32) (harg5 : arg5.IsWhole)
    (x0 : Vec F S5000x128 .f32) (x1 : Vec F S5000x128 .f32) (x2 : Vec F S5000x1 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc7__finalize_kernel i arg1 harg1 arg2 harg2 arg3 harg3 arg4 harg4 arg5 harg5) K :=
  sound_kernel1 c E i arg1 harg1 arg2 harg2 arg3 harg3 arg4 harg4 arg5 harg5 x0 x1 x2 x3 K

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ _ _ _ _ _ _ _ _ _ _ _ (iblk7 V c 0 t) (iblk7 V c 1 t) (iblk7 V c 2 t) (iblk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.KReg8.lean ====
import proofs.«429942_j15479062135041_1_alg».proof.Proof.Gen.Kernel.Launch
import proofs.«429942_j15479062135041_1_alg».proof.Proof.Gen.Kernel.Skeleton
import proofs.«429942_j15479062135041_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def acc8 (c : Dev nD) : ℕ → Vec F S128x128 .f32
  | 0 => k8_pay1 (F := F)
  | n + 1 => if h : n < cfg8.N then k8_pay2 (iblk8 V c 0 ⟨n, h⟩) (iblk8 V c 1 ⟨n, h⟩) (acc8 c n) else acc8 c n

def Phi8 (c : Dev nD) (t : Fin (cfg8.N + 1)) : sProp 𝕄 :=
  iprop((if t.val = 0 then iprop(∃ f : Buf (Elt F) ((c : Thread nD τ).loc cc8_scratch0), ((c : Thread nD τ).loc cc8_scratch0) ↦{fullShare} f)
      else iprop(((c : Thread nD τ).loc cc8_scratch0) ↦{fullShare} (acc8 V c t.val : Buf (Elt F) ((c : Thread nD τ).loc cc8_scratch0))))
    ∗ Pipeline.scopedRestBut (Ix := Unit) (Name := ℕ) (U := UR sig nD τ) (Lvl := ℕ) (Val := Elt F) spec8 c [cc8_scratch0]
    ∗ ∃ r, prngReg c r)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => acc8 V c (t.val + 1)
  Φ t := Phi8 V c t
  q _ := fullShare
  owed _ := 0

theorem A_eq8 (c : Dev nD) (w : Fin cfg8.W) : (dat8 V c).A w = V c (Pipeline.arrRef spec8 w) := by dsimp only [dat8]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = acc8 V c (t.val + 1) := by dsimp only [dat8]

abbrev cond8_0 (i : grid8.Coords) : Prop :=
  (Scalar.cmpi .ne (Scalar.extui (Scalar.cmpi .eq (BitVec.ofNat 32 (i 0).val) 0#32)) 0#32) = 1#1

theorem hcond8_0 : ∀ t : Fin cfg8.N, cond8_0 (grid8.coords t) ↔ t.val = 0 :=
  (by decide +kernel : ∀ t : Fin grid8.N, cond8_0 (grid8.coords t) ↔ t.val = 0)

theorem hcond8_1 : ∀ t : Fin cfg8.N, k8_cond2 (grid8.coords t) = 1#1 ↔ t.val = 9 :=
  (by decide +kernel : ∀ t : Fin grid8.N, k8_cond2 (grid8.coords t) = 1#1 ↔ t.val = 9)

theorem idleAt8_2 : ∀ t : Fin cfg8.N, t.val ≠ 9 → cfg8.idle 2 (grid8.coords t) = true :=
  (by decide +kernel : ∀ t : Fin grid8.N, t.val ≠ 9 → idle8 2 (grid8.coords t) = true)

theorem liveAt8_2 : ∀ t : Fin cfg8.N, t.val = 9 → cfg8.idle 2 (grid8.coords t) = false :=
  (by decide +kernel : ∀ t : Fin grid8.N, t.val = 9 → idle8 2 (grid8.coords t) = false)

theorem noFlush8_2 : ∀ t : Fin cfg8.N, t.val ≠ 9 → (cfg8.win 2).flush t = false :=
  (by decide +kernel : ∀ t : Fin grid8.N, t.val ≠ 9 → win8_2.flush t = false)

theorem before8_0 (c : Dev nD) (t : Fin cfg8.N) (d) : (dat8 V c).before 0 t d = iblk8 V c 0 t :=
  ((dat8 V c).before_in_eq_fetched 0 rfl (fun _ => rfl) (fun _ _ _ => rfl)
      (fun t => by rw [after8_0]; unfold Dat.blockOf iblk8; rw [A_eq8]; try rfl) t d).trans
    (by unfold Dat.fetched Dat.blockOf iblk8; rw [A_eq8]; try rfl)
theorem before8_1 (c : Dev nD) (t : Fin cfg8.N) (d) : (dat8 V c).before 1 t d = iblk8 V c 1 t :=
  ((dat8 V c).before_in_eq_fetched 1 rfl (fun _ => rfl) (fun _ _ _ => rfl)
      (fun t => by rw [after8_1]; unfold Dat.blockOf iblk8; rw [A_eq8]; try rfl) t d).trans
    (by unfold Dat.fetched Dat.blockOf iblk8; rw [A_eq8]; try rfl)

theorem hz8 : (![0, 0] : Fin 2 → Nat) = fun _ => 0 := funext fun a => by fin_cases a <;> rfl

theorem cover8 (p : (Rect.unit (s := S128x128) ![0, 0] S128x128.size inb_S128x128_S128x128_0_0).shape.Idx → Elt F .f32)
    (L : List (View.Piece (Elt F) S128x128 .f32)) (y : S128x128.Idx) :
    ∃ pc ∈ ((⟨Rect.unit (s := S128x128) ![0, 0] S128x128.size inb_S128x128_S128x128_0_0, p⟩ : View.Piece (Elt F) S128x128 .f32) :: L),
      y ∈ pc.1.set :=
  ⟨_, List.mem_cons.mpr (Or.inl rfl), View.mem_set_unit_zero hz8 inb_S128x128_S128x128_0_0 y⟩

set_option maxHeartbeats 1000000 in

theorem sound_kernel8_B (c : Dev nD) (E : Set ℕ) (i : grid8.Coords)
    (arg1 : Memref sig .tc .vmem S5000x128 .bf16) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (hc0 : ¬cond8_0 i) (hc1 : ¬k8_cond2 i = 1#1)
    (x0 : Vec F S5000x128 .bf16) (x1 : Vec F S5000x128 .f32) (xi : Vec F S128x128 .f32) (xs : Vec F S128x128 .f32) (K : PUnit → sProp 𝕄) :
    iprop(owns (c : Thread nD τ) arg1 fullShare x0 ∗ owns (c : Thread nD τ) arg2 fullShare x1 ∗ owns (c : Thread nD τ) arg3 fullShare xi
        ∗ owns (c : Thread nD τ) arg4 fullShare xs
        ∗ (iprop(owns (c : Thread nD τ) arg1 fullShare x0 ∗ owns (c : Thread nD τ) arg2 fullShare x1 ∗ owns (c : Thread nD τ) arg3 fullShare xi
            ∗ owns (c : Thread nD τ) arg4 fullShare (k8_pay2 x0 x1 xs)) -∗ K ⟨⟩))
      ⊢ wp frame (wpE (defs₀ (F := F)) Variants.none c none) E (cc8__pool_kernel i arg1 harg1 arg2 harg2 arg3 harg3 arg4 harg4) K := by
  simp only [cc8__pool_kernel_eq_skeleton]; unfold cc8__pool_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  rw [View.read_writes_eq_canon _ _ _ (cover8 _ _), View.canon_unit_zero hz8]
  simp only [View.readAt_eq_ld, View.ld_unit_zero (S := S5000x128) hz8, View.ld_unit_zero (S := S128x128) hz8]

set_option maxHeartbeats 1000000 in

theorem sound_kernel8_A (c : Dev nD) (E : Set ℕ) (i : grid8.Coords)
    (arg1 : Memref sig .tc .vmem S5000x128 .bf16) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (hc0 : cond8_0 i) (hc1 : ¬k8_cond2 i = 1#1)
    (x0 : Vec F S5000x128 .bf16) (x1 : Vec F S5000x128 .f32) (xi : Vec F S128x128 .f32) (K : PUnit → sProp 𝕄) :
    iprop(owns (c : Thread nD τ) arg1 fullShare x0 ∗ owns (c : Thread nD τ) arg2 fullShare x1 ∗ owns (c : Thread nD τ) arg3 fullShare xi
        ∗ (∃ d, owns (c : Thread nD τ) arg4 fullShare d)
        ∗ (iprop(owns (c : Thread nD τ) arg1 fullShare x0 ∗ owns (c : Thread nD τ) arg2 fullShare x1 ∗ owns (c : Thread nD τ) arg3 fullShare xi
            ∗ owns (c : Thread nD τ) arg4 fullShare (k8_pay2 x0 x1 (k8_pay1 (F := F)))) -∗ K ⟨⟩))
      ⊢ wp frame (wpE (defs₀ (F := F)) Variants.none c none) E (cc8__pool_kernel i arg1 harg1 arg2 harg2 arg3 harg3 arg4 harg4) K := by
  simp only [cc8__pool_kernel_eq_skeleton]; unfold cc8__pool_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_words
  rw [View.read_writes_eq_canon _ _ _ (cover8 _ _), View.canon_cons_unit_zero (S := S128x128) hz8,
    View.readCov_unit_zero (S := S128x128) _ hz8]
  simp only [View.readAt_eq_ld, View.ld_unit_zero (S := S5000x128) hz8]

set_option maxHeartbeats 1000000 in

theorem sound_kernel8_C (c : Dev nD) (E : Set ℕ) (i : grid8.Coords)
    (arg1 : Memref sig .tc .vmem S5000x128 .bf16) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (hc0 : ¬cond8_0 i) (hc1 : k8_cond2 i = 1#1)
    (x0 : Vec F S5000x128 .bf16) (x1 : Vec F S5000x128 .f32) (xs : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k8_pay2 x0 x1 xs)
            ∗ owns (c : Thread nD τ) arg4 fullShare (k8_pay2 x0 x1 xs)) -∗ K ⟨⟩))
      ⊢ wp frame (wpE (defs₀ (F := F)) Variants.none c none) E (cc8__pool_kernel i arg1 harg1 arg2 harg2 arg3 harg3 arg4 harg4) K := by
  simp only [cc8__pool_kernel_eq_skeleton]; unfold cc8__pool_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (cover8 _ _), View.canon_unit_zero hz8, View.readCov_unit_zero (S := S128x128) _ hz8]
    simp only [View.readAt_eq_ld, View.ld_unit_zero (S := S5000x128) hz8, View.ld_unit_zero (S := S128x128) hz8]
  iexists _; isplitr
  swap; · iexact HS
  ipureintro
  sl_unfold_words
  rw [View.read_writes_eq_canon _ _ _ (cover8 _ _), View.canon_unit_zero hz8]
  simp only [View.readAt_eq_ld, View.ld_unit_zero (S := S5000x128) hz8, View.ld_unit_zero (S := S128x128) hz8]

theorem acc8_zero (c : Dev nD) : acc8 V c 0 = k8_pay1 (F := F) := by rw [acc8]

theorem acc8_succ (c : Dev nD) (t : Fin cfg8.N) :
    acc8 V c (t.val + 1) = k8_pay2 (iblk8 V c 0 t) (iblk8 V c 1 t) (acc8 V c t.val) := by
  rw [acc8, dif_pos t.isLt]

theorem Phi8_zero (c : Dev nD) (t : Fin (cfg8.N + 1)) (h : t.val = 0) :
    Phi8 V c t = iprop((∃ d, owns (c : Thread nD τ) (Memref.whole cc8_scratch0) fullShare d)
      ∗ Pipeline.scopedRestBut (Ix := Unit) (Name := ℕ) (U := UR sig nD τ) (Lvl := ℕ) (Val := Elt F) spec8 c [cc8_scratch0]
      ∗ ∃ r, prngReg c r) := by
  unfold Phi8; rw [if_pos h]; simp only [owns_whole]; try rfl

theorem Phi8_pos (c : Dev nD) (t : Fin (cfg8.N + 1)) (h : t.val ≠ 0) :
    Phi8 V c t = iprop(owns (c : Thread nD τ) (Memref.whole cc8_scratch0) fullShare (acc8 V c t.val)
      ∗ Pipeline.scopedRestBut (Ix := Unit) (Name := ℕ) (U := UR sig nD τ) (Lvl := ℕ) (Val := Elt F) spec8 c [cc8_scratch0]
      ∗ ∃ r, prngReg c r) := by
  unfold Phi8; rw [if_neg h]; simp only [owns_whole]; try rfl

theorem liveAt8_0 : ∀ i : grid8.Coords, cfg8.idle 0 i = false := fun _ => rfl
theorem liveAt8_1 : ∀ i : grid8.Coords, cfg8.idle 1 i = false := fun _ => rfl

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

set_option maxHeartbeats 4000000 in

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl,
    show (dat8 V c).Φ t.castSucc = Phi8 V c t.castSucc from rfl,
    show (dat8 V c).Φ t.succ = Phi8 V c t.succ from rfl,
    Phi8_pos V c t.succ (by rw [Fin.val_succ]; exact Nat.succ_ne_zero _), Fin.val_succ, acc8_succ]
  rw [show (dat8 V c).leavesExact 0 t = owns (c : Thread nD τ) (st8_0 t) fullShare ((dat8 V c).after 0 t) from by
      unfold Dat.leavesExact; rw [liveAt8_0], after8_0,
    show (dat8 V c).leavesExact 1 t = owns (c : Thread nD τ) (st8_1 t) fullShare ((dat8 V c).after 1 t) from by
      unfold Dat.leavesExact; rw [liveAt8_1], after8_1]
  have hN : t.val < 10 := lt_of_lt_of_eq t.isLt (show cfg8.N = 10 from N_8)
  by_cases h0 : t.val = 0
  · have hc0 : cond8_0 (grid8.coords t) := (hcond8_0 t).mpr h0
    have h9 : t.val ≠ 9 := by omega
    have hc1 : ¬k8_cond2 (grid8.coords t) = 1#1 := fun h => h9 ((hcond8_1 t).mp h)
    rw [Phi8_zero V c t.castSucc (by rw [Fin.coe_castSucc]; exact h0),
      Dat.leavesExact_idle (dat8 V c) 2 t (idleAt8_2 t h9) (noFlush8_2 t h9),
      show acc8 V c t.val = k8_pay1 (F := F) from (congrArg (acc8 V c) h0).trans (acc8_zero V c)]
    iintro ⟨⟨⟨%ds, HS⟩, Hr, Hg⟩, Ho, ⟨%d0, H0⟩, ⟨%d1, H1⟩, ⟨%d2, H2⟩⟩
    iapply (sound_kernel8_A c Set.univ (grid8.coords t) _ _ _ _ _ _ _ _ hc0 hc1 (iblk8 V c 0 t) (iblk8 V c 1 t) ((dat8 V c).before 2 t d2) _)
    isplitl [H0]; · iexact H0
    isplitl [H1]; · iexact H1
    isplitl [H2]; · iexact H2
    isplitl [HS]; · iexists _; iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexists _; iexact H2
  · have hc0 : ¬cond8_0 (grid8.coords t) := fun h => h0 ((hcond8_0 t).mp h)
    rw [Phi8_pos V c t.castSucc (by rw [Fin.coe_castSucc]; exact h0), Fin.coe_castSucc]
    by_cases h9 : t.val = 9
    · have hc1 : k8_cond2 (grid8.coords t) = 1#1 := (hcond8_1 t).mpr h9
      rw [show (dat8 V c).leavesExact 2 t = owns (c : Thread nD τ) (st8_2 t) fullShare ((dat8 V c).after 2 t) from by
          unfold Dat.leavesExact; rw [liveAt8_2 t h9], after8_2, acc8_succ]
      iintro ⟨⟨HS, Hr, Hg⟩, Ho, ⟨%d0, H0⟩, ⟨%d1, H1⟩, ⟨%d2, H2⟩⟩
      iapply (sound_kernel8_C c Set.univ (grid8.coords t) _ _ _ _ _ _ _ _ hc0 hc1 (iblk8 V c 0 t) (iblk8 V c 1 t) (acc8 V c t.val) _)
      isplitl [H0]; · iexact H0
      isplitl [H1]; · iexact H1
      isplitl [H2]; · iexists _; iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexact H2
    · have hc1 : ¬k8_cond2 (grid8.coords t) = 1#1 := fun h => h9 ((hcond8_1 t).mp h)
      rw [Dat.leavesExact_idle (dat8 V c) 2 t (idleAt8_2 t h9) (noFlush8_2 t h9)]
      iintro ⟨⟨HS, Hr, Hg⟩, Ho, ⟨%d0, H0⟩, ⟨%d1, H1⟩, ⟨%d2, H2⟩⟩
      iapply (sound_kernel8_B c Set.univ (grid8.coords t) _ _ _ _ _ _ _ _ hc0 hc1 (iblk8 V c 0 t) (iblk8 V c 1 t) ((dat8 V c).before 2 t d2) (acc8 V c t.val) _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2

theorem hin8 (c : Dev nD) :
    iprop((∃ r, prngReg c r) ∗ Pipeline.scopedRest (Ix := Unit) (Name := ℕ) (U := UR sig nD τ) (Lvl := ℕ) (Val := Elt F) spec8 c)
      ⊢ (dat8 V c).Φ 0 := by
  rw [scopedRest8_split]
  show _ ⊢ Phi8 V c 0
  unfold Phi8
  rw [if_pos (Fin.val_zero _)]
  iintro ⟨Hg, Hs, Hr⟩
  isplitl [Hs]; · iexact Hs
  isplitl [Hr]; · iexact Hr
  iexact Hg

theorem hout8 (c : Dev nD) :
    (dat8 V c).Φ (Fin.last cfg8.N)
      ⊢ iprop((∃ r, prngReg c r) ∗ Pipeline.scopedRest (Ix := Unit) (Name := ℕ) (U := UR sig nD τ) (Lvl := ℕ) (Val := Elt F) spec8 c) := by
  rw [scopedRest8_split]
  show Phi8 V c (Fin.last cfg8.N) ⊢ _
  unfold Phi8
  rw [if_neg (by rw [Fin.val_last]; exact (by decide : grid8.N ≠ 0))]
  iintro ⟨Hs, Hr, Hg⟩
  isplitl [Hg]; · iexact Hg
  isplitl [Hs]; · iexists _; iexact Hs
  iexact Hr

theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.KFold.lean ====
import proofs.«429942_j15479062135041_1_alg».proof.Proof.Gen.Kernel.Regions
import proofs.«429942_j15479062135041_1_alg».proof.Proof.KReg0
import proofs.«429942_j15479062135041_1_alg».proof.Proof.KReg1
import proofs.«429942_j15479062135041_1_alg».proof.Proof.KReg2
import proofs.«429942_j15479062135041_1_alg».proof.Proof.KReg3
import proofs.«429942_j15479062135041_1_alg».proof.Proof.KReg4
import proofs.«429942_j15479062135041_1_alg».proof.Proof.KReg5
import proofs.«429942_j15479062135041_1_alg».proof.Proof.KReg6
import proofs.«429942_j15479062135041_1_alg».proof.Proof.KReg7
import proofs.«429942_j15479062135041_1_alg».proof.Proof.KReg8

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

abbrev U1 (c : Dev nD) : Valuation τ sig (Elt F) := V1 m c

def o2 (c : Dev nD) : Buf (Elt F) ((c : Thread nD τ).loc main_v29) := (dat0 (atTc (U1 m)) c).arrAt 2 cfg0.N
abbrev U2 (c : Dev nD) : Valuation τ sig (Elt F) := Function.update (U1 m c) main_v29 (o2 m c)
abbrev U3 (c : Dev nD) : Valuation τ sig (Elt F) := StableHlo.after hostOps1 (U2 m c)

def o4 (c : Dev nD) : Buf (Elt F) ((c : Thread nD τ).loc main_v43) := (dat1 (atTc (U3 m)) c).arrAt 4 cfg1.N
abbrev U4 (c : Dev nD) : Valuation τ sig (Elt F) := Function.update (U3 m c) main_v43 (o4 m c)
def o5 (c : Dev nD) : Buf (Elt F) ((c : Thread nD τ).loc main_v44) := (dat2 (atTc (U4 m)) c).arrAt 2 cfg2.N
abbrev U5 (c : Dev nD) : Valuation τ sig (Elt F) := Function.update (U4 m c) main_v44 (o5 m c)
abbrev U6 (c : Dev nD) : Valuation τ sig (Elt F) := StableHlo.after hostOps3 (U5 m c)
def o7 (c : Dev nD) : Buf (Elt F) ((c : Thread nD τ).loc main_v58) := (dat3 (atTc (U6 m)) c).arrAt 4 cfg3.N
abbrev U7 (c : Dev nD) : Valuation τ sig (Elt F) := Function.update (U6 m c) main_v58 (o7 m c)
def o8 (c : Dev nD) : Buf (Elt F) ((c : Thread nD τ).loc main_v59) := (dat4 (atTc (U7 m)) c).arrAt 2 cfg4.N
abbrev U8 (c : Dev nD) : Valuation τ sig (Elt F) := Function.update (U7 m c) main_v59 (o8 m c)
abbrev U9 (c : Dev nD) : Valuation τ sig (Elt F) := StableHlo.after hostOps5 (U8 m c)
def o10 (c : Dev nD) : Buf (Elt F) ((c : Thread nD τ).loc main_v73) := (dat5 (atTc (U9 m)) c).arrAt 4 cfg5.N
abbrev U10 (c : Dev nD) : Valuation τ sig (Elt F) := Function.update (U9 m c) main_v73 (o10 m c)
def o11 (c : Dev nD) : Buf (Elt F) ((c : Thread nD τ).loc main_v74) := (dat6 (atTc (U10 m)) c).arrAt 2 cfg6.N
abbrev U11 (c : Dev nD) : Valuation τ sig (Elt F) := Function.update (U10 m c) main_v74 (o11 m c)
abbrev U12 (c : Dev nD) : Valuation τ sig (Elt F) := StableHlo.after hostOps7 (U11 m c)
def o13 (c : Dev nD) : Buf (Elt F) ((c : Thread nD τ).loc main_v88) := (dat7 (atTc (U12 m)) c).arrAt 4 cfg7.N
abbrev U13 (c : Dev nD) : Valuation τ sig (Elt F) := Function.update (U12 m c) main_v88 (o13 m c)
abbrev U14 (c : Dev nD) : Valuation τ sig (Elt F) := StableHlo.after hostOps8 (U13 m c)

def o15 (c : Dev nD) : Buf (Elt F) ((c : Thread nD τ).loc main_v96) := (dat8 (atTc (U14 m)) c).arrAt 2 cfg8.N
abbrev U15 (c : Dev nD) : Valuation τ sig (Elt F) := Function.update (U14 m c) main_v96 (o15 m c)
abbrev U16 (c : Dev nD) : Valuation τ sig (Elt F) := StableHlo.after hostOps9 (U15 m c)
abbrev U17 (c : Dev nD) : Valuation τ sig (Elt F) := StableHlo.after hostOps9_1 (U16 m c)
abbrev U18 (c : Dev nD) : Valuation τ sig (Elt F) := StableHlo.after hostOps9_2 (U17 m c)

def outs : Outs (F := F) := fun _ r c =>
  if h : r = main_v29 then h ▸ o2 m c
  else if h : r = main_v43 then h ▸ o4 m c
  else if h : r = main_v44 then h ▸ o5 m c
  else if h : r = main_v58 then h ▸ o7 m c
  else if h : r = main_v59 then h ▸ o8 m c
  else if h : r = main_v73 then h ▸ o10 m c
  else if h : r = main_v74 then h ▸ o11 m c
  else if h : r = main_v88 then h ▸ o13 m c
  else if h : r = main_v96 then h ▸ o15 m c
  else m ((c : Thread nD τ).loc r)

theorem outs_v29 (k : ℕ) (c : Dev nD) : outs m k main_v29 c = o2 m c := by unfold outs; rw [dif_pos rfl]
theorem outs_v43 (k : ℕ) (c : Dev nD) : outs m k main_v43 c = o4 m c := by
  unfold outs; rw [dif_neg (by decide), dif_pos rfl]
theorem outs_v44 (k : ℕ) (c : Dev nD) : outs m k main_v44 c = o5 m c := by
  unfold outs; rw [dif_neg (by decide), dif_neg (by decide), dif_pos rfl]
theorem outs_v58 (k : ℕ) (c : Dev nD) : outs m k main_v58 c = o7 m c := by
  unfold outs; rw [dif_neg (by decide), dif_neg (by decide), dif_neg (by decide), dif_pos rfl]
theorem outs_v59 (k : ℕ) (c : Dev nD) : outs m k main_v59 c = o8 m c := by
  unfold outs; rw [dif_neg (by decide), dif_neg (by decide), dif_neg (by decide), dif_neg (by decide), dif_pos rfl]
theorem outs_v73 (k : ℕ) (c : Dev nD) : outs m k main_v73 c = o10 m c := by
  unfold outs; rw [dif_neg (by decide), dif_neg (by decide), dif_neg (by decide), dif_neg (by decide), dif_neg (by decide), dif_pos rfl]
theorem outs_v74 (k : ℕ) (c : Dev nD) : outs m k main_v74 c = o11 m c := by
  unfold outs; rw [dif_neg (by decide), dif_neg (by decide), dif_neg (by decide), dif_neg (by decide), dif_neg (by decide), dif_neg (by decide), dif_pos rfl]
theorem outs_v88 (k : ℕ) (c : Dev nD) : outs m k main_v88 c = o13 m c := by
  unfold outs; rw [dif_neg (by decide), dif_neg (by decide), dif_neg (by decide), dif_neg (by decide), dif_neg (by decide), dif_neg (by decide), dif_neg (by decide), dif_pos rfl]
theorem outs_v96 (k : ℕ) (c : Dev nD) : outs m k main_v96 c = o15 m c := by
  unfold outs; rw [dif_neg (by decide), dif_neg (by decide), dif_neg (by decide), dif_neg (by decide), dif_neg (by decide), dif_neg (by decide), dif_neg (by decide), dif_neg (by decide), dif_pos rfl]

theorem V2_eq (c : Dev nD) : V2 m (outs m) c = U2 m c := by
  show Function.update (V1 m c) main_v29 (outs m 2 main_v29 c) = _; rw [outs_v29]
theorem V3_eq (c : Dev nD) : V3 m (outs m) c = U3 m c := congrArg (StableHlo.after hostOps1) (V2_eq m c)
theorem V4_eq (c : Dev nD) : V4 m (outs m) c = U4 m c := by
  show Function.update (V3 m (outs m) c) main_v43 (outs m 4 main_v43 c) = _; rw [outs_v43, V3_eq]
theorem V5_eq (c : Dev nD) : V5 m (outs m) c = U5 m c := by
  show Function.update (V4 m (outs m) c) main_v44 (outs m 5 main_v44 c) = _; rw [outs_v44, V4_eq]
theorem V6_eq (c : Dev nD) : V6 m (outs m) c = U6 m c := congrArg (StableHlo.after hostOps3) (V5_eq m c)
theorem V7_eq (c : Dev nD) : V7 m (outs m) c = U7 m c := by
  show Function.update (V6 m (outs m) c) main_v58 (outs m 7 main_v58 c) = _; rw [outs_v58, V6_eq]
theorem V8_eq (c : Dev nD) : V8 m (outs m) c = U8 m c := by
  show Function.update (V7 m (outs m) c) main_v59 (outs m 8 main_v59 c) = _; rw [outs_v59, V7_eq]
theorem V9_eq (c : Dev nD) : V9 m (outs m) c = U9 m c := congrArg (StableHlo.after hostOps5) (V8_eq m c)
theorem V10_eq (c : Dev nD) : V10 m (outs m) c = U10 m c := by
  show Function.update (V9 m (outs m) c) main_v73 (outs m 10 main_v73 c) = _; rw [outs_v73, V9_eq]
theorem V11_eq (c : Dev nD) : V11 m (outs m) c = U11 m c := by
  show Function.update (V10 m (outs m) c) main_v74 (outs m 11 main_v74 c) = _; rw [outs_v74, V10_eq]
theorem V12_eq (c : Dev nD) : V12 m (outs m) c = U12 m c := congrArg (StableHlo.after hostOps7) (V11_eq m c)
theorem V13_eq (c : Dev nD) : V13 m (outs m) c = U13 m c := by
  show Function.update (V12 m (outs m) c) main_v88 (outs m 13 main_v88 c) = _; rw [outs_v88, V12_eq]
theorem V14_eq (c : Dev nD) : V14 m (outs m) c = U14 m c := congrArg (StableHlo.after hostOps8) (V13_eq m c)
theorem V15_eq (c : Dev nD) : V15 m (outs m) c = U15 m c := by
  show Function.update (V14 m (outs m) c) main_v96 (outs m 15 main_v96 c) = _; rw [outs_v96, V14_eq]
theorem V16_eq (c : Dev nD) : V16 m (outs m) c = U16 m c := congrArg (StableHlo.after hostOps9) (V15_eq m c)
theorem V17_eq (c : Dev nD) : V17 m (outs m) c = U17 m c := congrArg (StableHlo.after hostOps9_1) (V16_eq m c)
theorem V18_eq (c : Dev nD) : V18 m (outs m) c = U18 m c := congrArg (StableHlo.after hostOps9_2) (V17_eq m c)

def pdats : (p : Fin 9) → (c : Dev nD) → Dat τ (Elt F) Unit ℕ (UR sig nD τ) ℕ (Pipeline.pin (pcfgs (F := F)) adm p) c
  | ⟨0, _⟩ => fun c => dat0 (atTc (U1 m)) c
  | ⟨1, _⟩ => fun c => dat1 (atTc (U3 m)) c
  | ⟨2, _⟩ => fun c => dat2 (atTc (U4 m)) c
  | ⟨3, _⟩ => fun c => dat3 (atTc (U6 m)) c
  | ⟨4, _⟩ => fun c => dat4 (atTc (U7 m)) c
  | ⟨5, _⟩ => fun c => dat5 (atTc (U9 m)) c
  | ⟨6, _⟩ => fun c => dat6 (atTc (U10 m)) c
  | ⟨7, _⟩ => fun c => dat7 (atTc (U12 m)) c
  | ⟨8, _⟩ => fun c => dat8 (atTc (U14 m)) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

end Cert.Kernel.Hand

end
-- ==== Proof.KSeg.lean ====
import proofs.«429942_j15479062135041_1_alg».proof.Proof.KFold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Every kernel region enters and leaves the run the same way; only its launch facts, body obligation, contents and output window differ. -/
def segOf (p : Fin 9) (lf : Pipeline.LaunchFacts (nD := nD) (τ := τ) cfgs p) (Uin Uout : Dev nD → Valuation τ sig (Elt F))
    (hb : ∀ c, BodyObligation (pdats m p c) (defs₀ (F := F)) Variants.none () Set.univ)
    (ow : Fin (cfgs p).W)
    (hUout : ∀ c, Uout c = Function.update (Uin c) (Proc.devRef .tc (Pipeline.arrRef (cfgs p).spec ow))
      ((pdats m p c).arrAt ow (cfgs p).N))
    (hinp : ∀ w, w ≠ ow → ((cfgs p).win w).isOut = false)
    (hne : ∀ w, w ≠ ow → Pipeline.arrRef (cfgs p).spec w ≠ Pipeline.arrRef (cfgs p).spec ow)
    (hA : ∀ c w, (pdats m p c).A w = atTc Uin c (Pipeline.arrRef (cfgs p).spec w) := by exact fun _ _ => rfl)
    (hq : ∀ c w, (pdats m p c).q w = fullShare := by exact fun _ _ => rfl)
    (howed : ∀ c t, (pdats m p c).owed t = 0 := by exact fun _ _ => rfl)
    (hrec : ∀ c, (pdats m p c).recorded 0 = Set.univ := by exact fun _ => rfl)
    (hΦin : ∀ c, (Pipeline.ΦA (cfgs p).spec c : sProp 𝕄) ⊢ (pdats m p c).Φ 0 := by exact fun _ => .rfl)
    (hΦout : ∀ c, (pdats m p c).Φ (Fin.last _) ⊢ (Pipeline.ΦA (cfgs p).spec c : sProp 𝕄) := by exact fun _ => .rfl) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (Uin c) ∗ R c)
  post c := iprop(StableHlo.held (c : Thread nD τ) (Pipeline.ucRefs τ sig) (Uout c) ∗ R c)
  X c := iprop(∃ r, prngReg c r)
  Y c := iprop(∃ r, prngReg c r)
  Z c := Pipeline.unscopedRest (Ix := Unit) (Name := ℕ) (U := UR sig nD τ) (Lvl := ℕ) (cfgs p).spec c (atTc Uin c)
  hentry c := by
    rw [Pipeline.ownSems0_none]
    have hsplit := Pipeline.arrays_of_unscopedBufs (p := p) (pcfgs (F := F)) adm (pdats m) lf.win lf.arr_whole c
      ((pdats m p c).share_full (hq c)) (atTc Uin c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun x _ => Or.inl (hrec c ▸ Set.mem_univ x)
      iexact HO
    isplitl [Hp]; · iexact Hp
    iexact Hrest
  hin c := by
    refine .trans ?_ (hΦin c); unfold Pipeline.ΦA
    iintro ⟨Hp, -, Hr⟩
    isplitl [Hr]; · iexact Hr
    iexact Hp
  hout c := by
    rw [Pipeline.ownSems0_none]; refine (hΦout c).trans ?_; unfold Pipeline.ΦA
    iintro ⟨Hr, Hp⟩
    isplitl [Hp]; · iexact Hp
    isplitr; · iempintro
    iexact Hr
  hexit c := by
    have hF : ∀ w, (pdats m p c).arrAt w (cfgs p).N = atTc Uout c (Pipeline.arrRef (cfgs p).spec w) := fun w => by
      show _ = Uout c (Proc.devRef .tc (Pipeline.arrRef (cfgs p).spec w)); rw [hUout c]
      by_cases hw : w = ow
      · subst hw; exact (Function.update_self (_ : DevRef τ sig) _ (Uin c)).symm
      · exact (((pdats m p c).arrAt_in w (hinp w hw) _).trans (hA c w)).trans
          (Function.update_of_ne (StableHlo.devRef_ne_of_ne (hne w hw)) _ _).symm
    have hrest : ∀ b, b ∉ Finset.univ.image (Pipeline.arrRef (cfgs p).spec) → atTc Uout c b = atTc Uin c b := fun b hb => by
      show Uout c (Proc.devRef .tc b) = Uin c (Proc.devRef .tc b); rw [hUout c]
      exact Function.update_of_ne (StableHlo.devRef_ne_of_ne
        (fun e => hb (Finset.mem_image.mpr ⟨ow, Finset.mem_univ _, e.symm⟩))) _ _
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (atTc Uin c) (atTc Uout c) ((pdats m p c).arrAt · (cfgs p).N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

def seg0 := segOf m 0 launch0 (U1 m) (U2 m) (fun c => body_obligation0 (atTc (U1 m)) c) ⟨2, by decide⟩
  (fun _ => rfl) (by decide) (by decide)

def seg1 := segOf m 1 launch1 (U3 m) (U4 m) (fun c => body_obligation1 (atTc (U3 m)) c) ⟨4, by decide⟩
  (fun _ => rfl) (by decide) (by decide)

def seg2 := segOf m 2 launch2 (U4 m) (U5 m) (fun c => body_obligation2 (atTc (U4 m)) c) ⟨2, by decide⟩
  (fun _ => rfl) (by decide) (by decide)

def seg3 := segOf m 3 launch3 (U6 m) (U7 m) (fun c => body_obligation3 (atTc (U6 m)) c) ⟨4, by decide⟩
  (fun _ => rfl) (by decide) (by decide)

def seg4 := segOf m 4 launch4 (U7 m) (U8 m) (fun c => body_obligation4 (atTc (U7 m)) c) ⟨2, by decide⟩
  (fun _ => rfl) (by decide) (by decide)

def seg5 := segOf m 5 launch5 (U9 m) (U10 m) (fun c => body_obligation5 (atTc (U9 m)) c) ⟨4, by decide⟩
  (fun _ => rfl) (by decide) (by decide)

def seg6 := segOf m 6 launch6 (U10 m) (U11 m) (fun c => body_obligation6 (atTc (U10 m)) c) ⟨2, by decide⟩
  (fun _ => rfl) (by decide) (by decide)

def seg7 := segOf m 7 launch7 (U12 m) (U13 m) (fun c => body_obligation7 (atTc (U12 m)) c) ⟨4, by decide⟩
  (fun _ => rfl) (by decide) (by decide)

/-- The pooling region's invariant is not the plain one: it also holds the accumulator. -/
def seg8 := segOf m 8 launch8 (U14 m) (U15 m) (fun c => body_obligation8 (atTc (U14 m)) c) ⟨2, by decide⟩
  (fun _ => rfl) (by decide) (by decide)
  (hΦin := fun c => by
    show _ ⊢ (dat8 (atTc (U14 m)) c).Φ 0
    unfold Pipeline.ΦA; iintro ⟨Hr, Hp⟩; iapply (hin8 (atTc (U14 m)) c)
    isplitl [Hp]; · iexact Hp
    iexact Hr)
  (hΦout := fun c => by
    show (dat8 (atTc (U14 m)) c).Φ (Fin.last cfg8.N) ⊢ _
    unfold Pipeline.ΦA; refine (hout8 (atTc (U14 m)) c).trans ?_; iintro ⟨Hp, Hr⟩
    isplitl [Hr]; · iexact Hr
    iexact Hp)

end Cert.Kernel.Hand

end
-- ==== Proof.KRunCond.lean ====
import proofs.«429942_j15479062135041_1_alg».proof.Proof.Gen.Kernel.Regions

set_option maxRecDepth 1328

noncomputable section

namespace Cert.Kernel.GenP

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

-- `θ_run_regions_kit_dev`'s implicit arguments are found by unifying its conclusion with this one, which takes unfolding
-- plain definitions in a metavariable's type
set_option backward.isDefEq.respectTransparency.types false in
/-- THE CONDITIONAL RUN (the generated conditional frame with the result buffer read off the last valuation too). For any user algebra, level assignment, launch dues and ghost resources, any rest states
    `E` the launch makes on every core at once (`hE0`) and that end owing nothing (`hE9`), any contents the regions
    leave (`outs`) and any proof data: GIVEN, per region K, a segment record entered from this module's thread state
    before it and left at the one after it (`RK`, `hpreK`, `hpostK`), every weakly fair execution of @main from memory `m`
    with zero counters terminates and every final memory holds the result buffer at the last valuation's contents and each
    argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 9) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 10 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE9 : ∀ c : Dev nD, E 9 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V4 m outs c) ∗ E 2 c) ⊢ R2.pre c)
    (hpost2 : ∀ c : Dev nD, R2.post c ⊢ iprop(StableHlo.held (c : Thread nD τ) (Pipeline.ucRefs τ sig) (V5 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V6 m outs c) ∗ E 3 c) ⊢ R3.pre c)
    (hpost3 : ∀ c : Dev nD, R3.post c ⊢ iprop(StableHlo.held (c : Thread nD τ) (Pipeline.ucRefs τ sig) (V7 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V7 m outs c) ∗ E 4 c) ⊢ R4.pre c)
    (hpost4 : ∀ c : Dev nD, R4.post c ⊢ iprop(StableHlo.held (c : Thread nD τ) (Pipeline.ucRefs τ sig) (V8 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V9 m outs c) ∗ E 5 c) ⊢ R5.pre c)
    (hpost5 : ∀ c : Dev nD, R5.post c ⊢ iprop(StableHlo.held (c : Thread nD τ) (Pipeline.ucRefs τ sig) (V10 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V10 m outs c) ∗ E 6 c) ⊢ R6.pre c)
    (hpost6 : ∀ c : Dev nD, R6.post c ⊢ iprop(StableHlo.held (c : Thread nD τ) (Pipeline.ucRefs τ sig) (V11 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V12 m outs c) ∗ E 7 c) ⊢ R7.pre c)
    (hpost7 : ∀ c : Dev nD, R7.post c ⊢ iprop(StableHlo.held (c : Thread nD τ) (Pipeline.ucRefs τ sig) (V13 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V14 m outs c) ∗ E 8 c) ⊢ R8.pre c)
    (hpost8 : ∀ c : Dev nD, R8.post c ⊢ iprop(StableHlo.held (c : Thread nD τ) (Pipeline.ucRefs τ sig) (V15 m outs c) ∗ E 9 c)) :
    θ_run defs (onTc (τ := τ) (main (F := F))) ⟨m, fun _ => 0, ρ⟩ (fun r => ∀ c : Dev nD,
      r.2.mem ((c.tc : Thread nD τ).loc main_v108) = V18 m outs c main_v108
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8)
    (fun c Q => by
      rewrite [main_chain c, Seg.run_eq_chain,
        show (segs m outs 𝒱₀ L lv E ι pdats R0 R1 R2 R3 R4 R5 R6 R7 R8 c).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          StableHlo.seq hostOps9_1,
          StableHlo.seq hostOps9_2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V18 m outs c))
    (hch := fun c => ⟨.rfl, hpre0 c, hpost0 c, hpre1 c, (hpost1 c).trans (hpre2 c), hpost2 c, hpre3 c, (hpost3 c).trans (hpre4 c), hpost4 c, hpre5 c, (hpost5 c).trans (hpre6 c), hpost6 c, hpre7 c, hpost7 c, hpre8 c, hpost8 c, .rfl, .rfl, sep_mono .rfl (hE9 c)⟩)
    (hinit := ?_) (QY := fun c s => s.mem ((c.tc : Thread nD τ).loc main_v108) = V18 m outs c main_v108 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V18 m outs c) s') $$ [Hh HSI]
    · isplitl [Hh] <;> iassumption
    icases Hr with ⟨%h, HSI⟩
    imodintro
    isplitr
    · ipureintro
      exact ⟨h (Proc.devRef .tc main_v108) (Finset.mem_filter.mpr ⟨StableHlo.devRef_mem_tcRefs main_v108, by decide⟩),
        (h (Proc.devRef .tc main_arg0) (Finset.mem_filter.mpr ⟨StableHlo.devRef_mem_tcRefs main_arg0, by decide⟩)).trans (V18_main_arg0 m outs c),
        (h (Proc.devRef .tc main_arg1) (Finset.mem_filter.mpr ⟨StableHlo.devRef_mem_tcRefs main_arg1, by decide⟩)).trans (V18_main_arg1 m outs c),
        (h (Proc.devRef .tc main_arg2) (Finset.mem_filter.mpr ⟨StableHlo.devRef_mem_tcRefs main_arg2, by decide⟩)).trans (V18_main_arg2 m outs c),
        (h (Proc.devRef .tc main_arg3) (Finset.mem_filter.mpr ⟨StableHlo.devRef_mem_tcRefs main_arg3, by decide⟩)).trans (V18_main_arg3 m outs c),
        (h (Proc.devRef .tc main_arg4) (Finset.mem_filter.mpr ⟨StableHlo.devRef_mem_tcRefs main_arg4, by decide⟩)).trans (V18_main_arg4 m outs c),
        (h (Proc.devRef .tc main_arg5) (Finset.mem_filter.mpr ⟨StableHlo.devRef_mem_tcRefs main_arg5, by decide⟩)).trans (V18_main_arg5 m outs c),
        (h (Proc.devRef .tc main_arg6) (Finset.mem_filter.mpr ⟨StableHlo.devRef_mem_tcRefs main_arg6, by decide⟩)).trans (V18_main_arg6 m outs c),
        (h (Proc.devRef .tc main_arg7) (Finset.mem_filter.mpr ⟨StableHlo.devRef_mem_tcRefs main_arg7, by decide⟩)).trans (V18_main_arg7 m outs c),
        (h (Proc.devRef .tc main_arg8) (Finset.mem_filter.mpr ⟨StableHlo.devRef_mem_tcRefs main_arg8, by decide⟩)).trans (V18_main_arg8 m outs c)⟩
    · iexact HSI

end Cert.Kernel.GenP

end
-- ==== Proof.KRun.lean ====
import proofs.«429942_j15479062135041_1_alg».proof.Proof.KFold
import proofs.«429942_j15479062135041_1_alg».proof.Proof.KSeg
import proofs.«429942_j15479062135041_1_alg».proof.Proof.KRunCond

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

set_option backward.isDefEq.respectTransparency.types false in
theorem run_main : θ_run defs (onTc (τ := τ) (main (F := F))) ⟨m, fun _ => 0, ρ⟩ (fun r => ∀ c : Dev nD,
      r.2.mem ((c.tc : Thread nD τ).loc main_v108) = U18 m c main_v108
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  have hrun := Cert.Kernel.GenP.run_cond m emb₁ () 𝒱₀ L lv (fun _ _ => rfl) ρ (outs m) (pdats m)
    (fun _ => 0) (fun _ => iprop(emp)) (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, H⟩; iexact H)
    (seg0 m)
    (fun c => by exact .rfl)
    (fun c => by rw [V2_eq]; exact .rfl)
    (seg1 m)
    (fun c => by rw [V3_eq]; exact .rfl)
    (fun c => by rw [V4_eq]; exact .rfl)
    (seg2 m)
    (fun c => by rw [V4_eq]; exact .rfl)
    (fun c => by rw [V5_eq]; exact .rfl)
    (seg3 m)
    (fun c => by rw [V6_eq]; exact .rfl)
    (fun c => by rw [V7_eq]; exact .rfl)
    (seg4 m)
    (fun c => by rw [V7_eq]; exact .rfl)
    (fun c => by rw [V8_eq]; exact .rfl)
    (seg5 m)
    (fun c => by rw [V9_eq]; exact .rfl)
    (fun c => by rw [V10_eq]; exact .rfl)
    (seg6 m)
    (fun c => by rw [V10_eq]; exact .rfl)
    (fun c => by rw [V11_eq]; exact .rfl)
    (seg7 m)
    (fun c => by rw [V12_eq]; exact .rfl)
    (fun c => by rw [V13_eq]; exact .rfl)
    (seg8 m)
    (fun c => by rw [V14_eq]; exact .rfl)
    (fun c => by rw [V15_eq]; exact .rfl)
  exact (θ_run defs _ _).mono (fun r h c => ⟨(h c).1.trans (congrFun (V18_eq m c) _), (h c).2⟩) hrun

end Cert.Kernel.Hand

end
-- ==== Proof.KIReg0.lean ====
import proofs.«429942_j15479062135041_1_alg».proof.Proof.Gen.KernelIdeal.Launch
import proofs.«429942_j15479062135041_1_alg».proof.Proof.Gen.KernelIdeal.Skeleton
import proofs.«429942_j15479062135041_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_a : Rect S5000x128 := Rect.unit (s := S5000x128) ![0, 0] S5000x128.size inb_S5000x128_S5000x128_0_0
abbrev r0_b : Rect S128x128 := Rect.unit (s := S128x128) ![0, 0] S128x128.size inb_S128x128_S128x128_0_0

def out0_2 (x0 : Vec F S5000x128 .f32) (x1 : Vec F S128x128 .f32) : Vec F S5000x128 .f32 :=
  View.canon [⟨r0_a, k0_pay1 (View.ld x0 r0_a) (View.ld x1 r0_b)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

theorem cover0_2 (p0 : Vec F S5000x128 .f32) (y : S5000x128.Idx) :
    ∃ pc ∈ ([⟨r0_a, p0⟩] : List (View.Piece (Elt F) S5000x128 .f32)), y ∈ pc.1.set :=
  View.cover_of_tiled [⟨r0_a, p0⟩] S5000x128.size (by rfl) y

set_option maxHeartbeats 1000000 in

theorem sound_kernel0 (c : Dev nD) (E : Set ℕ) (i : grid0.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIReg1.lean ====
import proofs.«429942_j15479062135041_1_alg».proof.Proof.Gen.KernelIdeal.Launch
import proofs.«429942_j15479062135041_1_alg».proof.Proof.Gen.KernelIdeal.Skeleton
import proofs.«429942_j15479062135041_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S5000x128 := Rect.unit (s := S5000x128) ![0, 0] S5000x128.size inb_S5000x128_S5000x128_0_0
abbrev r1_c : Rect S5000x1 := Rect.unit (s := S5000x1) ![0, 0] S5000x1.size inb_S5000x1_S5000x1_0_0
abbrev r1_d : Rect S1x128 := Rect.unit (s := S1x128) ![0, 0] S1x128.size inb_S1x128_S1x128_0_0

def out1_4 (x0 : Vec F S5000x128 .f32) (x1 : Vec F S5000x128 .f32) (x2 : Vec F S5000x1 .f32) (x3 : Vec F S1x128 .f32) : Vec F S5000x128 .f32 :=
  View.canon [⟨r1_a, k1_pay1 (View.ld x0 r1_a) (View.ld x1 r1_a) (View.ld x2 r1_c) (View.ld x3 r1_d)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

theorem cover1_4 (p0 : Vec F S5000x128 .f32) (y : S5000x128.Idx) :
    ∃ pc ∈ ([⟨r1_a, p0⟩] : List (View.Piece (Elt F) S5000x128 .f32)), y ∈ pc.1.set :=
  View.cover_of_tiled [⟨r1_a, p0⟩] S5000x128.size (by rfl) y

set_option maxHeartbeats 1000000 in

theorem sound_kernel1 (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x128 .f32) (harg4 : arg4.IsWhole)
    (arg5 : Memref sig .tc .vmem S5000x128 .f32) (harg5 : arg5.IsWhole)
    (x0 : Vec F S5000x128 .f32) (x1 : Vec F S5000x128 .f32) (x2 : Vec F S5000x1 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc1__finalize_kernel i arg1 harg1 arg2 harg2 arg3 harg3 arg4 harg4 arg5 harg5) K := by
  simp only [cc1__finalize_kernel_eq_skeleton]; unfold cc1__finalize_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIReg2.lean ====
import proofs.«429942_j15479062135041_1_alg».proof.Proof.Gen.KernelIdeal.Launch
import proofs.«429942_j15479062135041_1_alg».proof.Proof.Gen.KernelIdeal.Skeleton
import proofs.«429942_j15479062135041_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_a : Rect S5000x128 := Rect.unit (s := S5000x128) ![0, 0] S5000x128.size inb_S5000x128_S5000x128_0_0
abbrev r2_b : Rect S128x128 := Rect.unit (s := S128x128) ![0, 0] S128x128.size inb_S128x128_S128x128_0_0

def out2_2 (x0 : Vec F S5000x128 .f32) (x1 : Vec F S128x128 .f32) : Vec F S5000x128 .f32 :=
  View.canon [⟨r2_a, k2_pay1 (View.ld x0 r2_a) (View.ld x1 r2_b)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

theorem cover2_2 (p0 : Vec F S5000x128 .f32) (y : S5000x128.Idx) :
    ∃ pc ∈ ([⟨r2_a, p0⟩] : List (View.Piece (Elt F) S5000x128 .f32)), y ∈ pc.1.set :=
  View.cover_of_tiled [⟨r2_a, p0⟩] S5000x128.size (by rfl) y

set_option maxHeartbeats 1000000 in

theorem sound_kernel2 (c : Dev nD) (E : Set ℕ) (i : grid2.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIReg3.lean ====
import proofs.«429942_j15479062135041_1_alg».proof.Proof.KIReg1
import proofs.«429942_j15479062135041_1_alg».proof.Proof.Gen.KernelIdeal.Launch
import proofs.«429942_j15479062135041_1_alg».proof.Proof.Gen.KernelIdeal.Skeleton
import proofs.«429942_j15479062135041_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out1_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out1_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)

theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)

theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)

theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)

/-- Region 3 runs the same body as region 1, so it has the same triple. -/
theorem sound_kernel3 (c : Dev nD) (E : Set ℕ) (i : grid3.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x128 .f32) (harg4 : arg4.IsWhole)
    (arg5 : Memref sig .tc .vmem S5000x128 .f32) (harg5 : arg5.IsWhole)
    (x0 : Vec F S5000x128 .f32) (x1 : Vec F S5000x128 .f32) (x2 : Vec F S5000x1 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc3__finalize_kernel i arg1 harg1 arg2 harg2 arg3 harg3 arg4 harg4 arg5 harg5) K :=
  sound_kernel1 c E i arg1 harg1 arg2 harg2 arg3 harg3 arg4 harg4 arg5 harg5 x0 x1 x2 x3 K

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KIReg4.lean ====
import proofs.«429942_j15479062135041_1_alg».proof.Proof.KIReg2
import proofs.«429942_j15479062135041_1_alg».proof.Proof.Gen.KernelIdeal.Launch
import proofs.«429942_j15479062135041_1_alg».proof.Proof.Gen.KernelIdeal.Skeleton
import proofs.«429942_j15479062135041_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out2_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out2_2 (iblk4 V c 0 t) (iblk4 V c 1 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)

theorem before4_1 (c : Dev nD) (t : Fin cfg4.N) (d) : (dat4 V c).before 1 t d = iblk4 V c 1 t :=
  ((dat4 V c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)

/-- Region 4 runs the same body as region 2, so it has the same triple. -/
theorem sound_kernel4 (c : Dev nD) (E : Set ℕ) (i : grid4.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc4__linear_kernel i arg1 harg1 arg2 harg2 arg3 harg3) K :=
  sound_kernel2 c E i arg1 harg1 arg2 harg2 arg3 harg3 x0 x1 K

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KIReg5.lean ====
import proofs.«429942_j15479062135041_1_alg».proof.Proof.KIReg1
import proofs.«429942_j15479062135041_1_alg».proof.Proof.Gen.KernelIdeal.Launch
import proofs.«429942_j15479062135041_1_alg».proof.Proof.Gen.KernelIdeal.Skeleton
import proofs.«429942_j15479062135041_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out1_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = out1_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)

theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)

theorem before5_2 (c : Dev nD) (t : Fin cfg5.N) (d) : (dat5 V c).before 2 t d = iblk5 V c 2 t :=
  ((dat5 V c).before_in_eq_fetched 2 rfl (fun _ => rfl) (fun _ _ _ => rfl)
    (fun t => by rw [after5_2]; unfold Dat.blockOf iblk5; rw [A_eq5]; try rfl) t d).trans
    (by unfold Dat.fetched Dat.blockOf iblk5; rw [A_eq5]; try rfl)

theorem before5_3 (c : Dev nD) (t : Fin cfg5.N) (d) : (dat5 V c).before 3 t d = iblk5 V c 3 t :=
  ((dat5 V c).before_in_eq_fetched 3 rfl (fun _ => rfl) (fun _ _ _ => rfl)
    (fun t => by rw [after5_3]; unfold Dat.blockOf iblk5; rw [A_eq5]; try rfl) t d).trans
    (by unfold Dat.fetched Dat.blockOf iblk5; rw [A_eq5]; try rfl)

/-- Region 5 runs the same body as region 1, so it has the same triple. -/
theorem sound_kernel5 (c : Dev nD) (E : Set ℕ) (i : grid5.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x128 .f32) (harg4 : arg4.IsWhole)
    (arg5 : Memref sig .tc .vmem S5000x128 .f32) (harg5 : arg5.IsWhole)
    (x0 : Vec F S5000x128 .f32) (x1 : Vec F S5000x128 .f32) (x2 : Vec F S5000x1 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc5__finalize_kernel i arg1 harg1 arg2 harg2 arg3 harg3 arg4 harg4 arg5 harg5) K :=
  sound_kernel1 c E i arg1 harg1 arg2 harg2 arg3 harg3 arg4 harg4 arg5 harg5 x0 x1 x2 x3 K

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KIReg6.lean ====
import proofs.«429942_j15479062135041_1_alg».proof.Proof.KIReg2
import proofs.«429942_j15479062135041_1_alg».proof.Proof.Gen.KernelIdeal.Launch
import proofs.«429942_j15479062135041_1_alg».proof.Proof.Gen.KernelIdeal.Skeleton
import proofs.«429942_j15479062135041_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out2_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out2_2 (iblk6 V c 0 t) (iblk6 V c 1 t) := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl)
      (fun t => by rw [after6_0]; unfold Dat.blockOf iblk6; rw [A_eq6]; try rfl) t d).trans
    (by unfold Dat.fetched Dat.blockOf iblk6; rw [A_eq6]; try rfl)

theorem before6_1 (c : Dev nD) (t : Fin cfg6.N) (d) : (dat6 V c).before 1 t d = iblk6 V c 1 t :=
  ((dat6 V c).before_in_eq_fetched 1 rfl (fun _ => rfl) (fun _ _ _ => rfl)
      (fun t => by rw [after6_1]; unfold Dat.blockOf iblk6; rw [A_eq6]; try rfl) t d).trans
    (by unfold Dat.fetched Dat.blockOf iblk6; rw [A_eq6]; try rfl)

/-- Region 6 runs the same body as region 2, so it has the same triple. -/
theorem sound_kernel6 (c : Dev nD) (E : Set ℕ) (i : grid6.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc6__linear_kernel i arg1 harg1 arg2 harg2 arg3 harg3) K :=
  sound_kernel2 c E i arg1 harg1 arg2 harg2 arg3 harg3 x0 x1 K

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KIReg7.lean ====
import proofs.«429942_j15479062135041_1_alg».proof.Proof.KIReg1
import proofs.«429942_j15479062135041_1_alg».proof.Proof.Gen.KernelIdeal.Launch
import proofs.«429942_j15479062135041_1_alg».proof.Proof.Gen.KernelIdeal.Skeleton
import proofs.«429942_j15479062135041_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out1_4 (iblk7 V c 0 t) (iblk7 V c 1 t) (iblk7 V c 2 t) (iblk7 V c 3 t)
  Φ _ := Pipeline.ΦA spec7 c
  q _ := fullShare
  owed _ := 0

theorem A_eq7 (c : Dev nD) (w : Fin cfg7.W) : (dat7 V c).A w = V c (Pipeline.arrRef spec7 w) := by dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) :
    (dat7 V c).after 4 t = out1_4 (iblk7 V c 0 t) (iblk7 V c 1 t) (iblk7 V c 2 t) (iblk7 V c 3 t) := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl)
    (fun t => by rw [after7_0]; unfold Dat.blockOf iblk7; rw [A_eq7]; try rfl) t d).trans
    (by unfold Dat.fetched Dat.blockOf iblk7; rw [A_eq7]; try rfl)

theorem before7_1 (c : Dev nD) (t : Fin cfg7.N) (d) : (dat7 V c).before 1 t d = iblk7 V c 1 t :=
  ((dat7 V c).before_in_eq_fetched 1 rfl (fun _ => rfl) (fun _ _ _ => rfl)
    (fun t => by rw [after7_1]; unfold Dat.blockOf iblk7; rw [A_eq7]; try rfl) t d).trans
    (by unfold Dat.fetched Dat.blockOf iblk7; rw [A_eq7]; try rfl)

theorem before7_2 (c : Dev nD) (t : Fin cfg7.N) (d) : (dat7 V c).before 2 t d = iblk7 V c 2 t :=
  ((dat7 V c).before_in_eq_fetched 2 rfl (fun _ => rfl) (fun _ _ _ => rfl)
    (fun t => by rw [after7_2]; unfold Dat.blockOf iblk7; rw [A_eq7]; try rfl) t d).trans
    (by unfold Dat.fetched Dat.blockOf iblk7; rw [A_eq7]; try rfl)

theorem before7_3 (c : Dev nD) (t : Fin cfg7.N) (d) : (dat7 V c).before 3 t d = iblk7 V c 3 t :=
  ((dat7 V c).before_in_eq_fetched 3 rfl (fun _ => rfl) (fun _ _ _ => rfl)
    (fun t => by rw [after7_3]; unfold Dat.blockOf iblk7; rw [A_eq7]; try rfl) t d).trans
    (by unfold Dat.fetched Dat.blockOf iblk7; rw [A_eq7]; try rfl)

/-- Region 7 runs the same body as region 1, so it has the same triple. -/
theorem sound_kernel7 (c : Dev nD) (E : Set ℕ) (i : grid7.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x128 .f32) (harg4 : arg4.IsWhole)
    (arg5 : Memref sig .tc .vmem S5000x128 .f32) (harg5 : arg5.IsWhole)
    (x0 : Vec F S5000x128 .f32) (x1 : Vec F S5000x128 .f32) (x2 : Vec F S5000x1 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc7__finalize_kernel i arg1 harg1 arg2 harg2 arg3 harg3 arg4 harg4 arg5 harg5) K :=
  sound_kernel1 c E i arg1 harg1 arg2 harg2 arg3 harg3 arg4 harg4 arg5 harg5 x0 x1 x2 x3 K

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ _ _ _ _ _ _ _ _ _ _ _ (iblk7 V c 0 t) (iblk7 V c 1 t) (iblk7 V c 2 t) (iblk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KIReg8.lean ====
import proofs.«429942_j15479062135041_1_alg».proof.Proof.Gen.KernelIdeal.Launch
import proofs.«429942_j15479062135041_1_alg».proof.Proof.Gen.KernelIdeal.Skeleton
import proofs.«429942_j15479062135041_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def acc8 (c : Dev nD) : ℕ → Vec F S128x128 .f32
  | 0 => k8_pay1 (F := F)
  | n + 1 => if h : n < cfg8.N then k8_pay2 (iblk8 V c 0 ⟨n, h⟩) (iblk8 V c 1 ⟨n, h⟩) (acc8 c n) else acc8 c n

def Phi8 (c : Dev nD) (t : Fin (cfg8.N + 1)) : sProp 𝕄 :=
  iprop((if t.val = 0 then iprop(∃ f : Buf (Elt F) ((c : Thread nD τ).loc cc8_scratch0), ((c : Thread nD τ).loc cc8_scratch0) ↦{fullShare} f)
      else iprop(((c : Thread nD τ).loc cc8_scratch0) ↦{fullShare} (acc8 V c t.val : Buf (Elt F) ((c : Thread nD τ).loc cc8_scratch0))))
    ∗ Pipeline.scopedRestBut (Ix := Unit) (Name := ℕ) (U := UR sig nD τ) (Lvl := ℕ) (Val := Elt F) spec8 c [cc8_scratch0]
    ∗ ∃ r, prngReg c r)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => acc8 V c (t.val + 1)
  Φ t := Phi8 V c t
  q _ := fullShare
  owed _ := 0

theorem A_eq8 (c : Dev nD) (w : Fin cfg8.W) : (dat8 V c).A w = V c (Pipeline.arrRef spec8 w) := by dsimp only [dat8]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = acc8 V c (t.val + 1) := by dsimp only [dat8]

abbrev cond8_0 (i : grid8.Coords) : Prop :=
  (Scalar.cmpi .ne (Scalar.extui (Scalar.cmpi .eq (BitVec.ofNat 32 (i 0).val) 0#32)) 0#32) = 1#1

theorem hcond8_0 : ∀ t : Fin cfg8.N, cond8_0 (grid8.coords t) ↔ t.val = 0 :=
  (by decide +kernel : ∀ t : Fin grid8.N, cond8_0 (grid8.coords t) ↔ t.val = 0)

theorem hcond8_1 : ∀ t : Fin cfg8.N, k8_cond2 (grid8.coords t) = 1#1 ↔ t.val = 9 :=
  (by decide +kernel : ∀ t : Fin grid8.N, k8_cond2 (grid8.coords t) = 1#1 ↔ t.val = 9)

theorem idleAt8_2 : ∀ t : Fin cfg8.N, t.val ≠ 9 → cfg8.idle 2 (grid8.coords t) = true :=
  (by decide +kernel : ∀ t : Fin grid8.N, t.val ≠ 9 → idle8 2 (grid8.coords t) = true)

theorem liveAt8_2 : ∀ t : Fin cfg8.N, t.val = 9 → cfg8.idle 2 (grid8.coords t) = false :=
  (by decide +kernel : ∀ t : Fin grid8.N, t.val = 9 → idle8 2 (grid8.coords t) = false)

theorem noFlush8_2 : ∀ t : Fin cfg8.N, t.val ≠ 9 → (cfg8.win 2).flush t = false :=
  (by decide +kernel : ∀ t : Fin grid8.N, t.val ≠ 9 → win8_2.flush t = false)

theorem before8_0 (c : Dev nD) (t : Fin cfg8.N) (d) : (dat8 V c).before 0 t d = iblk8 V c 0 t :=
  ((dat8 V c).before_in_eq_fetched 0 rfl (fun _ => rfl) (fun _ _ _ => rfl)
      (fun t => by rw [after8_0]; unfold Dat.blockOf iblk8; rw [A_eq8]; try rfl) t d).trans
    (by unfold Dat.fetched Dat.blockOf iblk8; rw [A_eq8]; try rfl)
theorem before8_1 (c : Dev nD) (t : Fin cfg8.N) (d) : (dat8 V c).before 1 t d = iblk8 V c 1 t :=
  ((dat8 V c).before_in_eq_fetched 1 rfl (fun _ => rfl) (fun _ _ _ => rfl)
      (fun t => by rw [after8_1]; unfold Dat.blockOf iblk8; rw [A_eq8]; try rfl) t d).trans
    (by unfold Dat.fetched Dat.blockOf iblk8; rw [A_eq8]; try rfl)

theorem hz8 : (![0, 0] : Fin 2 → Nat) = fun _ => 0 := funext fun a => by fin_cases a <;> rfl

theorem cover8 (p : (Rect.unit (s := S128x128) ![0, 0] S128x128.size inb_S128x128_S128x128_0_0).shape.Idx → Elt F .f32)
    (L : List (View.Piece (Elt F) S128x128 .f32)) (y : S128x128.Idx) :
    ∃ pc ∈ ((⟨Rect.unit (s := S128x128) ![0, 0] S128x128.size inb_S128x128_S128x128_0_0, p⟩ : View.Piece (Elt F) S128x128 .f32) :: L),
      y ∈ pc.1.set :=
  ⟨_, List.mem_cons.mpr (Or.inl rfl), View.mem_set_unit_zero hz8 inb_S128x128_S128x128_0_0 y⟩

set_option maxHeartbeats 1000000 in

theorem sound_kernel8_B (c : Dev nD) (E : Set ℕ) (i : grid8.Coords)
    (arg1 : Memref sig .tc .vmem S5000x128 .bf16) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (hc0 : ¬cond8_0 i) (hc1 : ¬k8_cond2 i = 1#1)
    (x0 : Vec F S5000x128 .bf16) (x1 : Vec F S5000x128 .f32) (xi : Vec F S128x128 .f32) (xs : Vec F S128x128 .f32) (K : PUnit → sProp 𝕄) :
    iprop(owns (c : Thread nD τ) arg1 fullShare x0 ∗ owns (c : Thread nD τ) arg2 fullShare x1 ∗ owns (c : Thread nD τ) arg3 fullShare xi
        ∗ owns (c : Thread nD τ) arg4 fullShare xs
        ∗ (iprop(owns (c : Thread nD τ) arg1 fullShare x0 ∗ owns (c : Thread nD τ) arg2 fullShare x1 ∗ owns (c : Thread nD τ) arg3 fullShare xi
            ∗ owns (c : Thread nD τ) arg4 fullShare (k8_pay2 x0 x1 xs)) -∗ K ⟨⟩))
      ⊢ wp frame (wpE (defs₀ (F := F)) Variants.none c none) E (cc8__pool_kernel i arg1 harg1 arg2 harg2 arg3 harg3 arg4 harg4) K := by
  simp only [cc8__pool_kernel_eq_skeleton]; unfold cc8__pool_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  rw [View.read_writes_eq_canon _ _ _ (cover8 _ _), View.canon_unit_zero hz8]
  simp only [View.readAt_eq_ld, View.ld_unit_zero (S := S5000x128) hz8, View.ld_unit_zero (S := S128x128) hz8]

set_option maxHeartbeats 1000000 in

theorem sound_kernel8_A (c : Dev nD) (E : Set ℕ) (i : grid8.Coords)
    (arg1 : Memref sig .tc .vmem S5000x128 .bf16) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (hc0 : cond8_0 i) (hc1 : ¬k8_cond2 i = 1#1)
    (x0 : Vec F S5000x128 .bf16) (x1 : Vec F S5000x128 .f32) (xi : Vec F S128x128 .f32) (K : PUnit → sProp 𝕄) :
    iprop(owns (c : Thread nD τ) arg1 fullShare x0 ∗ owns (c : Thread nD τ) arg2 fullShare x1 ∗ owns (c : Thread nD τ) arg3 fullShare xi
        ∗ (∃ d, owns (c : Thread nD τ) arg4 fullShare d)
        ∗ (iprop(owns (c : Thread nD τ) arg1 fullShare x0 ∗ owns (c : Thread nD τ) arg2 fullShare x1 ∗ owns (c : Thread nD τ) arg3 fullShare xi
            ∗ owns (c : Thread nD τ) arg4 fullShare (k8_pay2 x0 x1 (k8_pay1 (F := F)))) -∗ K ⟨⟩))
      ⊢ wp frame (wpE (defs₀ (F := F)) Variants.none c none) E (cc8__pool_kernel i arg1 harg1 arg2 harg2 arg3 harg3 arg4 harg4) K := by
  simp only [cc8__pool_kernel_eq_skeleton]; unfold cc8__pool_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_words
  rw [View.read_writes_eq_canon _ _ _ (cover8 _ _), View.canon_cons_unit_zero (S := S128x128) hz8,
    View.readCov_unit_zero (S := S128x128) _ hz8]
  simp only [View.readAt_eq_ld, View.ld_unit_zero (S := S5000x128) hz8]

set_option maxHeartbeats 1000000 in

theorem sound_kernel8_C (c : Dev nD) (E : Set ℕ) (i : grid8.Coords)
    (arg1 : Memref sig .tc .vmem S5000x128 .bf16) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (hc0 : ¬cond8_0 i) (hc1 : k8_cond2 i = 1#1)
    (x0 : Vec F S5000x128 .bf16) (x1 : Vec F S5000x128 .f32) (xs : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k8_pay2 x0 x1 xs)
            ∗ owns (c : Thread nD τ) arg4 fullShare (k8_pay2 x0 x1 xs)) -∗ K ⟨⟩))
      ⊢ wp frame (wpE (defs₀ (F := F)) Variants.none c none) E (cc8__pool_kernel i arg1 harg1 arg2 harg2 arg3 harg3 arg4 harg4) K := by
  simp only [cc8__pool_kernel_eq_skeleton]; unfold cc8__pool_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (cover8 _ _), View.canon_unit_zero hz8, View.readCov_unit_zero (S := S128x128) _ hz8]
    simp only [View.readAt_eq_ld, View.ld_unit_zero (S := S5000x128) hz8, View.ld_unit_zero (S := S128x128) hz8]
  iexists _; isplitr
  swap; · iexact HS
  ipureintro
  sl_unfold_words
  rw [View.read_writes_eq_canon _ _ _ (cover8 _ _), View.canon_unit_zero hz8]
  simp only [View.readAt_eq_ld, View.ld_unit_zero (S := S5000x128) hz8, View.ld_unit_zero (S := S128x128) hz8]

theorem acc8_zero (c : Dev nD) : acc8 V c 0 = k8_pay1 (F := F) := by rw [acc8]

theorem acc8_succ (c : Dev nD) (t : Fin cfg8.N) :
    acc8 V c (t.val + 1) = k8_pay2 (iblk8 V c 0 t) (iblk8 V c 1 t) (acc8 V c t.val) := by
  rw [acc8, dif_pos t.isLt]

theorem Phi8_zero (c : Dev nD) (t : Fin (cfg8.N + 1)) (h : t.val = 0) :
    Phi8 V c t = iprop((∃ d, owns (c : Thread nD τ) (Memref.whole cc8_scratch0) fullShare d)
      ∗ Pipeline.scopedRestBut (Ix := Unit) (Name := ℕ) (U := UR sig nD τ) (Lvl := ℕ) (Val := Elt F) spec8 c [cc8_scratch0]
      ∗ ∃ r, prngReg c r) := by
  unfold Phi8; rw [if_pos h]; simp only [owns_whole]; try rfl

theorem Phi8_pos (c : Dev nD) (t : Fin (cfg8.N + 1)) (h : t.val ≠ 0) :
    Phi8 V c t = iprop(owns (c : Thread nD τ) (Memref.whole cc8_scratch0) fullShare (acc8 V c t.val)
      ∗ Pipeline.scopedRestBut (Ix := Unit) (Name := ℕ) (U := UR sig nD τ) (Lvl := ℕ) (Val := Elt F) spec8 c [cc8_scratch0]
      ∗ ∃ r, prngReg c r) := by
  unfold Phi8; rw [if_neg h]; simp only [owns_whole]; try rfl

theorem liveAt8_0 : ∀ i : grid8.Coords, cfg8.idle 0 i = false := fun _ => rfl
theorem liveAt8_1 : ∀ i : grid8.Coords, cfg8.idle 1 i = false := fun _ => rfl

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

set_option maxHeartbeats 4000000 in

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl,
    show (dat8 V c).Φ t.castSucc = Phi8 V c t.castSucc from rfl,
    show (dat8 V c).Φ t.succ = Phi8 V c t.succ from rfl,
    Phi8_pos V c t.succ (by rw [Fin.val_succ]; exact Nat.succ_ne_zero _), Fin.val_succ, acc8_succ]
  rw [show (dat8 V c).leavesExact 0 t = owns (c : Thread nD τ) (st8_0 t) fullShare ((dat8 V c).after 0 t) from by
      unfold Dat.leavesExact; rw [liveAt8_0], after8_0,
    show (dat8 V c).leavesExact 1 t = owns (c : Thread nD τ) (st8_1 t) fullShare ((dat8 V c).after 1 t) from by
      unfold Dat.leavesExact; rw [liveAt8_1], after8_1]
  have hN : t.val < 10 := lt_of_lt_of_eq t.isLt (show cfg8.N = 10 from N_8)
  by_cases h0 : t.val = 0
  · have hc0 : cond8_0 (grid8.coords t) := (hcond8_0 t).mpr h0
    have h9 : t.val ≠ 9 := by omega
    have hc1 : ¬k8_cond2 (grid8.coords t) = 1#1 := fun h => h9 ((hcond8_1 t).mp h)
    rw [Phi8_zero V c t.castSucc (by rw [Fin.coe_castSucc]; exact h0),
      Dat.leavesExact_idle (dat8 V c) 2 t (idleAt8_2 t h9) (noFlush8_2 t h9),
      show acc8 V c t.val = k8_pay1 (F := F) from (congrArg (acc8 V c) h0).trans (acc8_zero V c)]
    iintro ⟨⟨⟨%ds, HS⟩, Hr, Hg⟩, Ho, ⟨%d0, H0⟩, ⟨%d1, H1⟩, ⟨%d2, H2⟩⟩
    iapply (sound_kernel8_A c Set.univ (grid8.coords t) _ _ _ _ _ _ _ _ hc0 hc1 (iblk8 V c 0 t) (iblk8 V c 1 t) ((dat8 V c).before 2 t d2) _)
    isplitl [H0]; · iexact H0
    isplitl [H1]; · iexact H1
    isplitl [H2]; · iexact H2
    isplitl [HS]; · iexists _; iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexists _; iexact H2
  · have hc0 : ¬cond8_0 (grid8.coords t) := fun h => h0 ((hcond8_0 t).mp h)
    rw [Phi8_pos V c t.castSucc (by rw [Fin.coe_castSucc]; exact h0), Fin.coe_castSucc]
    by_cases h9 : t.val = 9
    · have hc1 : k8_cond2 (grid8.coords t) = 1#1 := (hcond8_1 t).mpr h9
      rw [show (dat8 V c).leavesExact 2 t = owns (c : Thread nD τ) (st8_2 t) fullShare ((dat8 V c).after 2 t) from by
          unfold Dat.leavesExact; rw [liveAt8_2 t h9], after8_2, acc8_succ]
      iintro ⟨⟨HS, Hr, Hg⟩, Ho, ⟨%d0, H0⟩, ⟨%d1, H1⟩, ⟨%d2, H2⟩⟩
      iapply (sound_kernel8_C c Set.univ (grid8.coords t) _ _ _ _ _ _ _ _ hc0 hc1 (iblk8 V c 0 t) (iblk8 V c 1 t) (acc8 V c t.val) _)
      isplitl [H0]; · iexact H0
      isplitl [H1]; · iexact H1
      isplitl [H2]; · iexists _; iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexact H2
    · have hc1 : ¬k8_cond2 (grid8.coords t) = 1#1 := fun h => h9 ((hcond8_1 t).mp h)
      rw [Dat.leavesExact_idle (dat8 V c) 2 t (idleAt8_2 t h9) (noFlush8_2 t h9)]
      iintro ⟨⟨HS, Hr, Hg⟩, Ho, ⟨%d0, H0⟩, ⟨%d1, H1⟩, ⟨%d2, H2⟩⟩
      iapply (sound_kernel8_B c Set.univ (grid8.coords t) _ _ _ _ _ _ _ _ hc0 hc1 (iblk8 V c 0 t) (iblk8 V c 1 t) ((dat8 V c).before 2 t d2) (acc8 V c t.val) _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2

theorem hin8 (c : Dev nD) :
    iprop((∃ r, prngReg c r) ∗ Pipeline.scopedRest (Ix := Unit) (Name := ℕ) (U := UR sig nD τ) (Lvl := ℕ) (Val := Elt F) spec8 c)
      ⊢ (dat8 V c).Φ 0 := by
  rw [scopedRest8_split]
  show _ ⊢ Phi8 V c 0
  unfold Phi8
  rw [if_pos (Fin.val_zero _)]
  iintro ⟨Hg, Hs, Hr⟩
  isplitl [Hs]; · iexact Hs
  isplitl [Hr]; · iexact Hr
  iexact Hg

theorem hout8 (c : Dev nD) :
    (dat8 V c).Φ (Fin.last cfg8.N)
      ⊢ iprop((∃ r, prngReg c r) ∗ Pipeline.scopedRest (Ix := Unit) (Name := ℕ) (U := UR sig nD τ) (Lvl := ℕ) (Val := Elt F) spec8 c) := by
  rw [scopedRest8_split]
  show Phi8 V c (Fin.last cfg8.N) ⊢ _
  unfold Phi8
  rw [if_neg (by rw [Fin.val_last]; exact (by decide : grid8.N ≠ 0))]
  iintro ⟨Hs, Hr, Hg⟩
  isplitl [Hg]; · iexact Hg
  isplitl [Hs]; · iexists _; iexact Hs
  iexact Hr

theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KIFold.lean ====
import proofs.«429942_j15479062135041_1_alg».proof.Proof.Gen.KernelIdeal.Regions
import proofs.«429942_j15479062135041_1_alg».proof.Proof.KIReg0
import proofs.«429942_j15479062135041_1_alg».proof.Proof.KIReg1
import proofs.«429942_j15479062135041_1_alg».proof.Proof.KIReg2
import proofs.«429942_j15479062135041_1_alg».proof.Proof.KIReg3
import proofs.«429942_j15479062135041_1_alg».proof.Proof.KIReg4
import proofs.«429942_j15479062135041_1_alg».proof.Proof.KIReg5
import proofs.«429942_j15479062135041_1_alg».proof.Proof.KIReg6
import proofs.«429942_j15479062135041_1_alg».proof.Proof.KIReg7
import proofs.«429942_j15479062135041_1_alg».proof.Proof.KIReg8

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

abbrev U1 (c : Dev nD) : Valuation τ sig (Elt F) := V1 m c

def o2 (c : Dev nD) : Buf (Elt F) ((c : Thread nD τ).loc main_v29) := (dat0 (atTc (U1 m)) c).arrAt 2 cfg0.N
abbrev U2 (c : Dev nD) : Valuation τ sig (Elt F) := Function.update (U1 m c) main_v29 (o2 m c)
abbrev U3 (c : Dev nD) : Valuation τ sig (Elt F) := StableHlo.after hostOps1 (U2 m c)

def o4 (c : Dev nD) : Buf (Elt F) ((c : Thread nD τ).loc main_v43) := (dat1 (atTc (U3 m)) c).arrAt 4 cfg1.N
abbrev U4 (c : Dev nD) : Valuation τ sig (Elt F) := Function.update (U3 m c) main_v43 (o4 m c)
def o5 (c : Dev nD) : Buf (Elt F) ((c : Thread nD τ).loc main_v44) := (dat2 (atTc (U4 m)) c).arrAt 2 cfg2.N
abbrev U5 (c : Dev nD) : Valuation τ sig (Elt F) := Function.update (U4 m c) main_v44 (o5 m c)
abbrev U6 (c : Dev nD) : Valuation τ sig (Elt F) := StableHlo.after hostOps3 (U5 m c)
def o7 (c : Dev nD) : Buf (Elt F) ((c : Thread nD τ).loc main_v58) := (dat3 (atTc (U6 m)) c).arrAt 4 cfg3.N
abbrev U7 (c : Dev nD) : Valuation τ sig (Elt F) := Function.update (U6 m c) main_v58 (o7 m c)
def o8 (c : Dev nD) : Buf (Elt F) ((c : Thread nD τ).loc main_v59) := (dat4 (atTc (U7 m)) c).arrAt 2 cfg4.N
abbrev U8 (c : Dev nD) : Valuation τ sig (Elt F) := Function.update (U7 m c) main_v59 (o8 m c)
abbrev U9 (c : Dev nD) : Valuation τ sig (Elt F) := StableHlo.after hostOps5 (U8 m c)
def o10 (c : Dev nD) : Buf (Elt F) ((c : Thread nD τ).loc main_v73) := (dat5 (atTc (U9 m)) c).arrAt 4 cfg5.N
abbrev U10 (c : Dev nD) : Valuation τ sig (Elt F) := Function.update (U9 m c) main_v73 (o10 m c)
def o11 (c : Dev nD) : Buf (Elt F) ((c : Thread nD τ).loc main_v74) := (dat6 (atTc (U10 m)) c).arrAt 2 cfg6.N
abbrev U11 (c : Dev nD) : Valuation τ sig (Elt F) := Function.update (U10 m c) main_v74 (o11 m c)
abbrev U12 (c : Dev nD) : Valuation τ sig (Elt F) := StableHlo.after hostOps7 (U11 m c)
def o13 (c : Dev nD) : Buf (Elt F) ((c : Thread nD τ).loc main_v88) := (dat7 (atTc (U12 m)) c).arrAt 4 cfg7.N
abbrev U13 (c : Dev nD) : Valuation τ sig (Elt F) := Function.update (U12 m c) main_v88 (o13 m c)
abbrev U14 (c : Dev nD) : Valuation τ sig (Elt F) := StableHlo.after hostOps8 (U13 m c)

def o15 (c : Dev nD) : Buf (Elt F) ((c : Thread nD τ).loc main_v96) := (dat8 (atTc (U14 m)) c).arrAt 2 cfg8.N
abbrev U15 (c : Dev nD) : Valuation τ sig (Elt F) := Function.update (U14 m c) main_v96 (o15 m c)
abbrev U16 (c : Dev nD) : Valuation τ sig (Elt F) := StableHlo.after hostOps9 (U15 m c)
abbrev U17 (c : Dev nD) : Valuation τ sig (Elt F) := StableHlo.after hostOps9_1 (U16 m c)
abbrev U18 (c : Dev nD) : Valuation τ sig (Elt F) := StableHlo.after hostOps9_2 (U17 m c)

def outs : Outs (F := F) := fun _ r c =>
  if h : r = main_v29 then h ▸ o2 m c
  else if h : r = main_v43 then h ▸ o4 m c
  else if h : r = main_v44 then h ▸ o5 m c
  else if h : r = main_v58 then h ▸ o7 m c
  else if h : r = main_v59 then h ▸ o8 m c
  else if h : r = main_v73 then h ▸ o10 m c
  else if h : r = main_v74 then h ▸ o11 m c
  else if h : r = main_v88 then h ▸ o13 m c
  else if h : r = main_v96 then h ▸ o15 m c
  else m ((c : Thread nD τ).loc r)

theorem outs_v29 (k : ℕ) (c : Dev nD) : outs m k main_v29 c = o2 m c := by unfold outs; rw [dif_pos rfl]
theorem outs_v43 (k : ℕ) (c : Dev nD) : outs m k main_v43 c = o4 m c := by
  unfold outs; rw [dif_neg (by decide), dif_pos rfl]
theorem outs_v44 (k : ℕ) (c : Dev nD) : outs m k main_v44 c = o5 m c := by
  unfold outs; rw [dif_neg (by decide), dif_neg (by decide), dif_pos rfl]
theorem outs_v58 (k : ℕ) (c : Dev nD) : outs m k main_v58 c = o7 m c := by
  unfold outs; rw [dif_neg (by decide), dif_neg (by decide), dif_neg (by decide), dif_pos rfl]
theorem outs_v59 (k : ℕ) (c : Dev nD) : outs m k main_v59 c = o8 m c := by
  unfold outs; rw [dif_neg (by decide), dif_neg (by decide), dif_neg (by decide), dif_neg (by decide), dif_pos rfl]
theorem outs_v73 (k : ℕ) (c : Dev nD) : outs m k main_v73 c = o10 m c := by
  unfold outs; rw [dif_neg (by decide), dif_neg (by decide), dif_neg (by decide), dif_neg (by decide), dif_neg (by decide), dif_pos rfl]
theorem outs_v74 (k : ℕ) (c : Dev nD) : outs m k main_v74 c = o11 m c := by
  unfold outs; rw [dif_neg (by decide), dif_neg (by decide), dif_neg (by decide), dif_neg (by decide), dif_neg (by decide), dif_neg (by decide), dif_pos rfl]
theorem outs_v88 (k : ℕ) (c : Dev nD) : outs m k main_v88 c = o13 m c := by
  unfold outs; rw [dif_neg (by decide), dif_neg (by decide), dif_neg (by decide), dif_neg (by decide), dif_neg (by decide), dif_neg (by decide), dif_neg (by decide), dif_pos rfl]
theorem outs_v96 (k : ℕ) (c : Dev nD) : outs m k main_v96 c = o15 m c := by
  unfold outs; rw [dif_neg (by decide), dif_neg (by decide), dif_neg (by decide), dif_neg (by decide), dif_neg (by decide), dif_neg (by decide), dif_neg (by decide), dif_neg (by decide), dif_pos rfl]

theorem V2_eq (c : Dev nD) : V2 m (outs m) c = U2 m c := by
  show Function.update (V1 m c) main_v29 (outs m 2 main_v29 c) = _; rw [outs_v29]
theorem V3_eq (c : Dev nD) : V3 m (outs m) c = U3 m c := congrArg (StableHlo.after hostOps1) (V2_eq m c)
theorem V4_eq (c : Dev nD) : V4 m (outs m) c = U4 m c := by
  show Function.update (V3 m (outs m) c) main_v43 (outs m 4 main_v43 c) = _; rw [outs_v43, V3_eq]
theorem V5_eq (c : Dev nD) : V5 m (outs m) c = U5 m c := by
  show Function.update (V4 m (outs m) c) main_v44 (outs m 5 main_v44 c) = _; rw [outs_v44, V4_eq]
theorem V6_eq (c : Dev nD) : V6 m (outs m) c = U6 m c := congrArg (StableHlo.after hostOps3) (V5_eq m c)
theorem V7_eq (c : Dev nD) : V7 m (outs m) c = U7 m c := by
  show Function.update (V6 m (outs m) c) main_v58 (outs m 7 main_v58 c) = _; rw [outs_v58, V6_eq]
theorem V8_eq (c : Dev nD) : V8 m (outs m) c = U8 m c := by
  show Function.update (V7 m (outs m) c) main_v59 (outs m 8 main_v59 c) = _; rw [outs_v59, V7_eq]
theorem V9_eq (c : Dev nD) : V9 m (outs m) c = U9 m c := congrArg (StableHlo.after hostOps5) (V8_eq m c)
theorem V10_eq (c : Dev nD) : V10 m (outs m) c = U10 m c := by
  show Function.update (V9 m (outs m) c) main_v73 (outs m 10 main_v73 c) = _; rw [outs_v73, V9_eq]
theorem V11_eq (c : Dev nD) : V11 m (outs m) c = U11 m c := by
  show Function.update (V10 m (outs m) c) main_v74 (outs m 11 main_v74 c) = _; rw [outs_v74, V10_eq]
theorem V12_eq (c : Dev nD) : V12 m (outs m) c = U12 m c := congrArg (StableHlo.after hostOps7) (V11_eq m c)
theorem V13_eq (c : Dev nD) : V13 m (outs m) c = U13 m c := by
  show Function.update (V12 m (outs m) c) main_v88 (outs m 13 main_v88 c) = _; rw [outs_v88, V12_eq]
theorem V14_eq (c : Dev nD) : V14 m (outs m) c = U14 m c := congrArg (StableHlo.after hostOps8) (V13_eq m c)
theorem V15_eq (c : Dev nD) : V15 m (outs m) c = U15 m c := by
  show Function.update (V14 m (outs m) c) main_v96 (outs m 15 main_v96 c) = _; rw [outs_v96, V14_eq]
theorem V16_eq (c : Dev nD) : V16 m (outs m) c = U16 m c := congrArg (StableHlo.after hostOps9) (V15_eq m c)
theorem V17_eq (c : Dev nD) : V17 m (outs m) c = U17 m c := congrArg (StableHlo.after hostOps9_1) (V16_eq m c)
theorem V18_eq (c : Dev nD) : V18 m (outs m) c = U18 m c := congrArg (StableHlo.after hostOps9_2) (V17_eq m c)

def pdats : (p : Fin 9) → (c : Dev nD) → Dat τ (Elt F) Unit ℕ (UR sig nD τ) ℕ (Pipeline.pin (pcfgs (F := F)) adm p) c
  | ⟨0, _⟩ => fun c => dat0 (atTc (U1 m)) c
  | ⟨1, _⟩ => fun c => dat1 (atTc (U3 m)) c
  | ⟨2, _⟩ => fun c => dat2 (atTc (U4 m)) c
  | ⟨3, _⟩ => fun c => dat3 (atTc (U6 m)) c
  | ⟨4, _⟩ => fun c => dat4 (atTc (U7 m)) c
  | ⟨5, _⟩ => fun c => dat5 (atTc (U9 m)) c
  | ⟨6, _⟩ => fun c => dat6 (atTc (U10 m)) c
  | ⟨7, _⟩ => fun c => dat7 (atTc (U12 m)) c
  | ⟨8, _⟩ => fun c => dat8 (atTc (U14 m)) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

end Cert.KernelIdeal.Hand

end
-- ==== Proof.KISeg.lean ====
import proofs.«429942_j15479062135041_1_alg».proof.Proof.KIFold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Every kernel region enters and leaves the run the same way; only its launch facts, body obligation, contents and output window differ. -/
def segOf (p : Fin 9) (lf : Pipeline.LaunchFacts (nD := nD) (τ := τ) cfgs p) (Uin Uout : Dev nD → Valuation τ sig (Elt F))
    (hb : ∀ c, BodyObligation (pdats m p c) (defs₀ (F := F)) Variants.none () Set.univ)
    (ow : Fin (cfgs p).W)
    (hUout : ∀ c, Uout c = Function.update (Uin c) (Proc.devRef .tc (Pipeline.arrRef (cfgs p).spec ow))
      ((pdats m p c).arrAt ow (cfgs p).N))
    (hinp : ∀ w, w ≠ ow → ((cfgs p).win w).isOut = false)
    (hne : ∀ w, w ≠ ow → Pipeline.arrRef (cfgs p).spec w ≠ Pipeline.arrRef (cfgs p).spec ow)
    (hA : ∀ c w, (pdats m p c).A w = atTc Uin c (Pipeline.arrRef (cfgs p).spec w) := by exact fun _ _ => rfl)
    (hq : ∀ c w, (pdats m p c).q w = fullShare := by exact fun _ _ => rfl)
    (howed : ∀ c t, (pdats m p c).owed t = 0 := by exact fun _ _ => rfl)
    (hrec : ∀ c, (pdats m p c).recorded 0 = Set.univ := by exact fun _ => rfl)
    (hΦin : ∀ c, (Pipeline.ΦA (cfgs p).spec c : sProp 𝕄) ⊢ (pdats m p c).Φ 0 := by exact fun _ => .rfl)
    (hΦout : ∀ c, (pdats m p c).Φ (Fin.last _) ⊢ (Pipeline.ΦA (cfgs p).spec c : sProp 𝕄) := by exact fun _ => .rfl) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (Uin c) ∗ R c)
  post c := iprop(StableHlo.held (c : Thread nD τ) (Pipeline.ucRefs τ sig) (Uout c) ∗ R c)
  X c := iprop(∃ r, prngReg c r)
  Y c := iprop(∃ r, prngReg c r)
  Z c := Pipeline.unscopedRest (Ix := Unit) (Name := ℕ) (U := UR sig nD τ) (Lvl := ℕ) (cfgs p).spec c (atTc Uin c)
  hentry c := by
    rw [Pipeline.ownSems0_none]
    have hsplit := Pipeline.arrays_of_unscopedBufs (p := p) (pcfgs (F := F)) adm (pdats m) lf.win lf.arr_whole c
      ((pdats m p c).share_full (hq c)) (atTc Uin c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun x _ => Or.inl (hrec c ▸ Set.mem_univ x)
      iexact HO
    isplitl [Hp]; · iexact Hp
    iexact Hrest
  hin c := by
    refine .trans ?_ (hΦin c); unfold Pipeline.ΦA
    iintro ⟨Hp, -, Hr⟩
    isplitl [Hr]; · iexact Hr
    iexact Hp
  hout c := by
    rw [Pipeline.ownSems0_none]; refine (hΦout c).trans ?_; unfold Pipeline.ΦA
    iintro ⟨Hr, Hp⟩
    isplitl [Hp]; · iexact Hp
    isplitr; · iempintro
    iexact Hr
  hexit c := by
    have hF : ∀ w, (pdats m p c).arrAt w (cfgs p).N = atTc Uout c (Pipeline.arrRef (cfgs p).spec w) := fun w => by
      show _ = Uout c (Proc.devRef .tc (Pipeline.arrRef (cfgs p).spec w)); rw [hUout c]
      by_cases hw : w = ow
      · subst hw; exact (Function.update_self (_ : DevRef τ sig) _ (Uin c)).symm
      · exact (((pdats m p c).arrAt_in w (hinp w hw) _).trans (hA c w)).trans
          (Function.update_of_ne (StableHlo.devRef_ne_of_ne (hne w hw)) _ _).symm
    have hrest : ∀ b, b ∉ Finset.univ.image (Pipeline.arrRef (cfgs p).spec) → atTc Uout c b = atTc Uin c b := fun b hb => by
      show Uout c (Proc.devRef .tc b) = Uin c (Proc.devRef .tc b); rw [hUout c]
      exact Function.update_of_ne (StableHlo.devRef_ne_of_ne
        (fun e => hb (Finset.mem_image.mpr ⟨ow, Finset.mem_univ _, e.symm⟩))) _ _
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (atTc Uin c) (atTc Uout c) ((pdats m p c).arrAt · (cfgs p).N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

def seg0 := segOf m 0 launch0 (U1 m) (U2 m) (fun c => body_obligation0 (atTc (U1 m)) c) ⟨2, by decide⟩
  (fun _ => rfl) (by decide) (by decide)

def seg1 := segOf m 1 launch1 (U3 m) (U4 m) (fun c => body_obligation1 (atTc (U3 m)) c) ⟨4, by decide⟩
  (fun _ => rfl) (by decide) (by decide)

def seg2 := segOf m 2 launch2 (U4 m) (U5 m) (fun c => body_obligation2 (atTc (U4 m)) c) ⟨2, by decide⟩
  (fun _ => rfl) (by decide) (by decide)

def seg3 := segOf m 3 launch3 (U6 m) (U7 m) (fun c => body_obligation3 (atTc (U6 m)) c) ⟨4, by decide⟩
  (fun _ => rfl) (by decide) (by decide)

def seg4 := segOf m 4 launch4 (U7 m) (U8 m) (fun c => body_obligation4 (atTc (U7 m)) c) ⟨2, by decide⟩
  (fun _ => rfl) (by decide) (by decide)

def seg5 := segOf m 5 launch5 (U9 m) (U10 m) (fun c => body_obligation5 (atTc (U9 m)) c) ⟨4, by decide⟩
  (fun _ => rfl) (by decide) (by decide)

def seg6 := segOf m 6 launch6 (U10 m) (U11 m) (fun c => body_obligation6 (atTc (U10 m)) c) ⟨2, by decide⟩
  (fun _ => rfl) (by decide) (by decide)

def seg7 := segOf m 7 launch7 (U12 m) (U13 m) (fun c => body_obligation7 (atTc (U12 m)) c) ⟨4, by decide⟩
  (fun _ => rfl) (by decide) (by decide)

/-- The pooling region's invariant is not the plain one: it also holds the accumulator. -/
def seg8 := segOf m 8 launch8 (U14 m) (U15 m) (fun c => body_obligation8 (atTc (U14 m)) c) ⟨2, by decide⟩
  (fun _ => rfl) (by decide) (by decide)
  (hΦin := fun c => by
    show _ ⊢ (dat8 (atTc (U14 m)) c).Φ 0
    unfold Pipeline.ΦA; iintro ⟨Hr, Hp⟩; iapply (hin8 (atTc (U14 m)) c)
    isplitl [Hp]; · iexact Hp
    iexact Hr)
  (hΦout := fun c => by
    show (dat8 (atTc (U14 m)) c).Φ (Fin.last cfg8.N) ⊢ _
    unfold Pipeline.ΦA; refine (hout8 (atTc (U14 m)) c).trans ?_; iintro ⟨Hp, Hr⟩
    isplitl [Hr]; · iexact Hr
    iexact Hp)

end Cert.KernelIdeal.Hand

end
-- ==== Proof.KIRunCond.lean ====
import proofs.«429942_j15479062135041_1_alg».proof.Proof.Gen.KernelIdeal.Regions

set_option maxRecDepth 1328

noncomputable section

namespace Cert.KernelIdeal.GenP

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

-- `θ_run_regions_kit_dev`'s implicit arguments are found by unifying its conclusion with this one, which takes unfolding
-- plain definitions in a metavariable's type
set_option backward.isDefEq.respectTransparency.types false in
/-- THE CONDITIONAL RUN (the generated conditional frame with the result buffer read off the last valuation too). For any user algebra, level assignment, launch dues and ghost resources, any rest states
    `E` the launch makes on every core at once (`hE0`) and that end owing nothing (`hE9`), any contents the regions
    leave (`outs`) and any proof data: GIVEN, per region K, a segment record entered from this module's thread state
    before it and left at the one after it (`RK`, `hpreK`, `hpostK`), every weakly fair execution of @main from memory `m`
    with zero counters terminates and every final memory holds the result buffer at the last valuation's contents and each
    argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 9) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 10 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE9 : ∀ c : Dev nD, E 9 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V4 m outs c) ∗ E 2 c) ⊢ R2.pre c)
    (hpost2 : ∀ c : Dev nD, R2.post c ⊢ iprop(StableHlo.held (c : Thread nD τ) (Pipeline.ucRefs τ sig) (V5 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V6 m outs c) ∗ E 3 c) ⊢ R3.pre c)
    (hpost3 : ∀ c : Dev nD, R3.post c ⊢ iprop(StableHlo.held (c : Thread nD τ) (Pipeline.ucRefs τ sig) (V7 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V7 m outs c) ∗ E 4 c) ⊢ R4.pre c)
    (hpost4 : ∀ c : Dev nD, R4.post c ⊢ iprop(StableHlo.held (c : Thread nD τ) (Pipeline.ucRefs τ sig) (V8 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V9 m outs c) ∗ E 5 c) ⊢ R5.pre c)
    (hpost5 : ∀ c : Dev nD, R5.post c ⊢ iprop(StableHlo.held (c : Thread nD τ) (Pipeline.ucRefs τ sig) (V10 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V10 m outs c) ∗ E 6 c) ⊢ R6.pre c)
    (hpost6 : ∀ c : Dev nD, R6.post c ⊢ iprop(StableHlo.held (c : Thread nD τ) (Pipeline.ucRefs τ sig) (V11 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V12 m outs c) ∗ E 7 c) ⊢ R7.pre c)
    (hpost7 : ∀ c : Dev nD, R7.post c ⊢ iprop(StableHlo.held (c : Thread nD τ) (Pipeline.ucRefs τ sig) (V13 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V14 m outs c) ∗ E 8 c) ⊢ R8.pre c)
    (hpost8 : ∀ c : Dev nD, R8.post c ⊢ iprop(StableHlo.held (c : Thread nD τ) (Pipeline.ucRefs τ sig) (V15 m outs c) ∗ E 9 c)) :
    θ_run defs (onTc (τ := τ) (main (F := F))) ⟨m, fun _ => 0, ρ⟩ (fun r => ∀ c : Dev nD,
      r.2.mem ((c.tc : Thread nD τ).loc main_v108) = V18 m outs c main_v108
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8)
    (fun c Q => by
      rewrite [main_chain c, Seg.run_eq_chain,
        show (segs m outs 𝒱₀ L lv E ι pdats R0 R1 R2 R3 R4 R5 R6 R7 R8 c).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          StableHlo.seq hostOps9_1,
          StableHlo.seq hostOps9_2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V18 m outs c))
    (hch := fun c => ⟨.rfl, hpre0 c, hpost0 c, hpre1 c, (hpost1 c).trans (hpre2 c), hpost2 c, hpre3 c, (hpost3 c).trans (hpre4 c), hpost4 c, hpre5 c, (hpost5 c).trans (hpre6 c), hpost6 c, hpre7 c, hpost7 c, hpre8 c, hpost8 c, .rfl, .rfl, sep_mono .rfl (hE9 c)⟩)
    (hinit := ?_) (QY := fun c s => s.mem ((c.tc : Thread nD τ).loc main_v108) = V18 m outs c main_v108 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V18 m outs c) s') $$ [Hh HSI]
    · isplitl [Hh] <;> iassumption
    icases Hr with ⟨%h, HSI⟩
    imodintro
    isplitr
    · ipureintro
      exact ⟨h (Proc.devRef .tc main_v108) (Finset.mem_filter.mpr ⟨StableHlo.devRef_mem_tcRefs main_v108, by decide⟩),
        (h (Proc.devRef .tc main_arg0) (Finset.mem_filter.mpr ⟨StableHlo.devRef_mem_tcRefs main_arg0, by decide⟩)).trans (V18_main_arg0 m outs c),
        (h (Proc.devRef .tc main_arg1) (Finset.mem_filter.mpr ⟨StableHlo.devRef_mem_tcRefs main_arg1, by decide⟩)).trans (V18_main_arg1 m outs c),
        (h (Proc.devRef .tc main_arg2) (Finset.mem_filter.mpr ⟨StableHlo.devRef_mem_tcRefs main_arg2, by decide⟩)).trans (V18_main_arg2 m outs c),
        (h (Proc.devRef .tc main_arg3) (Finset.mem_filter.mpr ⟨StableHlo.devRef_mem_tcRefs main_arg3, by decide⟩)).trans (V18_main_arg3 m outs c),
        (h (Proc.devRef .tc main_arg4) (Finset.mem_filter.mpr ⟨StableHlo.devRef_mem_tcRefs main_arg4, by decide⟩)).trans (V18_main_arg4 m outs c),
        (h (Proc.devRef .tc main_arg5) (Finset.mem_filter.mpr ⟨StableHlo.devRef_mem_tcRefs main_arg5, by decide⟩)).trans (V18_main_arg5 m outs c),
        (h (Proc.devRef .tc main_arg6) (Finset.mem_filter.mpr ⟨StableHlo.devRef_mem_tcRefs main_arg6, by decide⟩)).trans (V18_main_arg6 m outs c),
        (h (Proc.devRef .tc main_arg7) (Finset.mem_filter.mpr ⟨StableHlo.devRef_mem_tcRefs main_arg7, by decide⟩)).trans (V18_main_arg7 m outs c),
        (h (Proc.devRef .tc main_arg8) (Finset.mem_filter.mpr ⟨StableHlo.devRef_mem_tcRefs main_arg8, by decide⟩)).trans (V18_main_arg8 m outs c)⟩
    · iexact HSI

end Cert.KernelIdeal.GenP

end
-- ==== Proof.KIRun.lean ====
import proofs.«429942_j15479062135041_1_alg».proof.Proof.KIFold
import proofs.«429942_j15479062135041_1_alg».proof.Proof.KISeg
import proofs.«429942_j15479062135041_1_alg».proof.Proof.KIRunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

set_option backward.isDefEq.respectTransparency.types false in
theorem run_main : θ_run defs (onTc (τ := τ) (main (F := F))) ⟨m, fun _ => 0, ρ⟩ (fun r => ∀ c : Dev nD,
      r.2.mem ((c.tc : Thread nD τ).loc main_v108) = U18 m c main_v108
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  have hrun := Cert.KernelIdeal.GenP.run_cond m emb₁ () 𝒱₀ L lv (fun _ _ => rfl) ρ (outs m) (pdats m)
    (fun _ => 0) (fun _ => iprop(emp)) (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, H⟩; iexact H)
    (seg0 m)
    (fun c => by exact .rfl)
    (fun c => by rw [V2_eq]; exact .rfl)
    (seg1 m)
    (fun c => by rw [V3_eq]; exact .rfl)
    (fun c => by rw [V4_eq]; exact .rfl)
    (seg2 m)
    (fun c => by rw [V4_eq]; exact .rfl)
    (fun c => by rw [V5_eq]; exact .rfl)
    (seg3 m)
    (fun c => by rw [V6_eq]; exact .rfl)
    (fun c => by rw [V7_eq]; exact .rfl)
    (seg4 m)
    (fun c => by rw [V7_eq]; exact .rfl)
    (fun c => by rw [V8_eq]; exact .rfl)
    (seg5 m)
    (fun c => by rw [V9_eq]; exact .rfl)
    (fun c => by rw [V10_eq]; exact .rfl)
    (seg6 m)
    (fun c => by rw [V10_eq]; exact .rfl)
    (fun c => by rw [V11_eq]; exact .rfl)
    (seg7 m)
    (fun c => by rw [V12_eq]; exact .rfl)
    (fun c => by rw [V13_eq]; exact .rfl)
    (seg8 m)
    (fun c => by rw [V14_eq]; exact .rfl)
    (fun c => by rw [V15_eq]; exact .rfl)
  exact (θ_run defs _ _).mono (fun r h c => ⟨(h c).1.trans (congrFun (V18_eq m c) _), (h c).2⟩) hrun

end Cert.KernelIdeal.Hand

end
-- ==== Proof.Stages.lean ====
import proofs.«429942_j15479062135041_1_alg».proof.Proof.Gen.ReferenceIdeal
import proofs.«429942_j15479062135041_1_alg».proof.Proof.Gen.KernelIdeal
import Idealize.ShloMosaic.PureOps.Ideal
import Idealize.ShloMosaic.Lib.ValueIdx

noncomputable section

namespace Cert.Stages

open Cert.ReferenceIdeal Cert.ReferenceIdeal.Gen Idealize.ShloMosaic Idealize.ShloMosaic.ValueIdx

abbrev Arr (F : FTy → Type) (S : Shape) (e : EltTy) : Type := (⟨S, e⟩ : BufTy).Contents (Elt F)

variable {F : FTy → Type} [FloatOps F]

def srcI (x1 : Arr F S2x1600000 .i32) : Arr F S1600000 .i32 :=
  shapeCast _ (extractStridedSlice S1x1600000 ![0, 0] x1 slices_S2x1600000_S1x1600000_0_0) shapeCasts_S1x1600000_S1600000

def dstI (x1 : Arr F S2x1600000 .i32) : Arr F S1600000 .i32 :=
  shapeCast _ (extractStridedSlice S1x1600000 ![1, 0] x1 slices_S2x1600000_S1x1600000_1_0) shapeCasts_S1x1600000_S1600000

def wrapI (v : Arr F S1600000 .i32) : Arr F S1600000 .i32 :=
  select (cmpi .slt v (broadcastInDim S1600000 ![] bcast_S_S1600000 (constantI S_ 32 0#32)))
    (addi v (broadcastInDim S1600000 ![] bcast_S_S1600000 (constantI S_ 32 50000#32))) v

def colI (v : Arr F S1600000 .i32) : Arr F S1600000x1 .i32 := broadcastInDim S1600000x1 ![0] bcast_S1600000_S1600000x1_0 v

def dinvS (x1 : Arr F S2x1600000 .i32) : Arr F S50000 .f32 :=
  Host.rsqrt (addf (Host.scatterAdd scatter_S50000_S1600000x1_S1600000_n_0_0_1
      (broadcastInDim S50000 ![] bcast_S_S50000 (constant S_ .f32 0x00000000#32)) (colI (dstI x1))
      (broadcastInDim S1600000 ![] bcast_S_S1600000 (constant S_ .f32 0x3F800000#32)))
    (broadcastInDim S50000 ![] bcast_S_S50000 (constant S_ .f32 0x3F800000#32)))

def coefS (x1 : Arr F S2x1600000 .i32) : Arr F S1600000 .f32 :=
  mulf (Host.gather gather_S50000_S1600000x1_S1600000_n_0_n_n_0_1_1 (dinvS x1) (colI (wrapI (srcI x1))))
    (Host.gather gather_S50000_S1600000x1_S1600000_n_0_n_n_0_1_1 (dinvS x1) (colI (wrapI (dstI x1))))

def aggS (x1 : Arr F S2x1600000 .i32) (cE1 : Arr F S1600000x1 .f32) (h : Arr F S50000x128 .f32) : Arr F S50000x128 .f32 :=
  Host.scatterAdd scatter_S50000x128_S1600000x1_S1600000x128_1_0_0_1
    (broadcastInDim S50000x128 ![] bcast_S_S50000x128 (constant S_ .f32 0x00000000#32)) (colI (dstI x1))
    (mulf (Host.gather gather_S50000x128_S1600000x1_S1600000x128_1_0_n_n_0_1_1128 h (colI (wrapI (srcI x1))))
      (broadcastInDim S1600000x128 ![0, 1] bcast_S1600000x1_S1600000x128_0_1 cE1))

def linS (y : Arr F S50000x128 .f32) (W : Arr F S128x128 .f32) : Arr F S50000x128 .f32 :=
  Host.dotGeneral dot_S50000x128_S128x128_S50000x128_1_0_0_1_n_n none y W

def layerR (x1 : Arr F S2x1600000 .i32) (y : Arr F S50000x128 .f32) (W : Arr F S128x128 .f32) (b : Arr F S128 .f32) : Arr F S50000x128 .f32 :=
  maximumf
    (addf
      (addf (aggS x1 (broadcastInDim S1600000x1 ![0] bcast_S1600000_S1600000x1_0 (coefS x1)) (linS y W))
        (mulf (linS y W) (broadcastInDim S50000x128 ![0, 1] bcast_S50000x1_S50000x128_0_1
          (broadcastInDim S50000x1 ![0] bcast_S50000_S50000x1_0 (mulf (dinvS x1) (dinvS x1))))))
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

def coefColK (x1 : Arr F S2x1600000 .i32) : Arr F S1600000x1 .f32 :=
  shapeCast _ (coefS x1) Cert.KernelIdeal.Gen.shapeCasts_S1600000_S1600000x1

def d2ColK (x1 : Arr F S2x1600000 .i32) : Arr F S50000x1 .f32 :=
  shapeCast _ (mulf (dinvS x1) (dinvS x1)) Cert.KernelIdeal.Gen.shapeCasts_S50000_S50000x1

def bRowK (b : Arr F S128 .f32) : Arr F S1x128 .f32 := shapeCast _ b Cert.KernelIdeal.Gen.shapeCasts_S128_S1x128

def finS (agg h : Arr F S50000x128 .f32) (d : Arr F S50000x1 .f32) (b : Arr F S1x128 .f32) : Arr F S50000x128 .f32 :=
  fun i => FloatOps.maximumf
    (FloatOps.addf (FloatOps.addf (agg i) (FloatOps.mulf (h i) (d (ix2 (n0 := 50000) (n1 := 1) (i 0) 0))))
      (b (ix2 (n0 := 1) (n1 := 128) 0 (i 1))))
    (FloatOps.ofBits .f32 0x00000000#32)

def layerK (x1 : Arr F S2x1600000 .i32) (y : Arr F S50000x128 .f32) (W : Arr F S128x128 .f32) (b : Arr F S128 .f32) : Arr F S50000x128 .f32 :=
  finS (aggS x1 (coefColK x1) (linS y W)) (linS y W) (d2ColK x1) (bRowK b)

def poolR (x2 : Arr F S50000 .i32) (h : Arr F S50000x128 .f32) : Arr F S128x128 .f32 :=
  Host.scatterAdd scatter_S128x128_S50000x1_S50000x128_1_0_0_1
    (broadcastInDim S128x128 ![] bcast_S_S128x128 (constant S_ .f32 0x00000000#32))
    (broadcastInDim S50000x1 ![0] bcast_S50000_S50000x1_0 x2) h

def onehotS (x2 : Arr F S50000 .i32) : Arr F S50000x128 .bf16 :=
  uitofp .bf16 (cmpi .eq
    (broadcastInDim S50000x128 ![0, 1] bcast_S50000x1_S50000x128_0_1 (broadcastInDim S50000x1 ![0] bcast_S50000_S50000x1_0 x2))
    (broadcastInDim S50000x128 ![0, 1] bcast_S1x128_S50000x128_0_1
      (broadcastInDim S1x128 ![1] bcast_S128_S1x128_1 (iotaInDim S128 32 0))))

def tailS (sums : Arr F S128x128 .f32) (x2 : Arr F S50000 .i32) (x7 : Arr F S128x1 .f32) (x8 : Arr F S1 .f32) : Arr F S128x1 .f32 :=
  addf
    (Host.dotGeneral dot_S128x128_S128x1_S128x1_1_0_0_1_n_n none
      (Host.divf sums (broadcastInDim S128x128 ![0, 1] bcast_S128x1_S128x128_0_1 (broadcastInDim S128x1 ![0] bcast_S128_S128x1_0
        (maximumf (broadcastInDim S128 ![] bcast_S_S128 (constant S_ .f32 0x3F800000#32))
          (Host.scatterAdd scatter_S128_S50000x1_S50000_n_0_0_1
            (broadcastInDim S128 ![] bcast_S_S128 (constant S_ .f32 0x00000000#32))
            (broadcastInDim S50000x1 ![0] bcast_S50000_S50000x1_0 x2)
            (broadcastInDim S50000 ![] bcast_S_S50000 (constant S_ .f32 0x3F800000#32)))))))
      x7)
    (broadcastInDim S128x1 ![0, 1] bcast_S1x1_S128x1_0_1 (broadcastInDim S1x1 ![1] bcast_S1_S1x1_1 x8))

def netR (x0 : Arr F S50000x128 .f32) (x1 : Arr F S2x1600000 .i32) (x2 : Arr F S50000 .i32) (x3 : Arr F S128x128 .f32) (x4 : Arr F S128 .f32)
    (x5 : Arr F S128x128 .f32) (x6 : Arr F S128 .f32) (x7 : Arr F S128x1 .f32) (x8 : Arr F S1 .f32) : Arr F S128x1 .f32 :=
  tailS (poolR x2 (layerR x1 (layerR x1 (layerR x1 (layerR x1 x0 x3 x4) x5 x6) x5 x6) x5 x6)) x2 x7 x8

end Cert.Stages

namespace Cert.Stages

open Cert.ReferenceIdeal Cert.ReferenceIdeal.Gen Idealize.ShloMosaic Idealize.ShloMosaic.ValueIdx

def poolK (oh : (⟨S50000x128, .bf16⟩ : BufTy).Contents (Elt Ideal)) (h : (⟨S50000x128, .f32⟩ : BufTy).Contents (Elt Ideal)) :
    (⟨S128x128, .f32⟩ : BufTy).Contents (Elt Ideal) :=
  fun i => ∑ n : Fin 50000, (oh (ix2 (n0 := 50000) (n1 := 128) n (i 0)) : EReal) * (h (ix2 (n0 := 50000) (n1 := 128) n (i 1)) : EReal)

end Cert.Stages

end
-- ==== Proof.ValLin0.lean ====
import proofs.«429942_j15479062135041_1_alg».proof.Proof.KIReg0
import proofs.«429942_j15479062135041_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

private theorem lhs_blk_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

private theorem lhs_blk_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

private theorem rhs_blk_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

private theorem rhs_blk_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem blk_matmul_apply (l : FVec Ideal S5000x128 .bf16) (r : FVec Ideal S128x128 .bf16) (p : Fin 5000) (q : Fin 128) :
    FloatOps.matmul dot_S5000x128_S128x128_S5000x128_1_0_0_1_n_n none l r (constant (F := Ideal) S5000x128 .f32 0x00000000#32) (ix2 p q)
      = ∑ k : Fin 128, l (ix2 p k) * r (ix2 k q) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_blk_row _ _
    | ⟨1, _⟩ => exact (lhs_blk_contr _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_blk_contr _ _).trans hk
    | ⟨1, _⟩ => exact rhs_blk_col _ _)
  rw [el, er]

theorem pay0_apply (x : Vec Ideal S5000x128 .f32) (w : Vec Ideal S128x128 .f32) (p : Fin 5000) (q : Fin 128) :
    k0_pay1 (F := Ideal) x w (ix2 p q) = ∑ k : Fin 128, x (ix2 p k) * w (ix2 k q) := by
  unfold k0_pay1
  try simp only [shapeCast_self]
  exact blk_matmul_apply _ _ p q

private theorem lhs_all_row (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl

private theorem lhs_all_contr (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q

private theorem rhs_all_contr (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q

private theorem rhs_all_col (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl

theorem linS_apply (y : Cert.Stages.Arr Ideal Cert.ReferenceIdeal.S50000x128 .f32) (w : Cert.Stages.Arr Ideal Cert.ReferenceIdeal.S128x128 .f32)
    (r : Fin 50000) (q : Fin 128) :
    Cert.Stages.linS (F := Ideal) y w (ix2 r q) = ∑ k : Fin 128, y (ix2 r k) * w (ix2 k q) := by
  unfold Cert.Stages.linS
  simp only [Host.dotGeneral]
  rw [Ideal.dotGeneral_apply, ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 r q) ((contrEquiv1 Cert.ReferenceIdeal.dot_S50000x128_S128x128_S50000x128_1_0_0_1_n_n 128 rfl rfl).symm k) = ix2 r k := funext fun a => Fin.ext (by
    match a with
    | ⟨0, _⟩ => exact lhs_all_row _ _
    | ⟨1, _⟩ => exact (lhs_all_contr _ _).trans hk)
  have er : Cert.ReferenceIdeal.dot_S50000x128_S128x128_S50000x128_1_0_0_1_n_n.rhsIdx (ix2 r q) ((contrEquiv1 Cert.ReferenceIdeal.dot_S50000x128_S128x128_S50000x128_1_0_0_1_n_n 128 rfl rfl).symm k) = ix2 k q := funext fun a => Fin.ext (by
    match a with
    | ⟨0, _⟩ => exact (rhs_all_contr _ _).trans hk
    | ⟨1, _⟩ => exact rhs_all_col _ _)
  rw [el, er]

theorem hz0 : (![0, 0] : Fin 2 → Nat) = fun _ => 0 := funext fun a => by fin_cases a <;> rfl

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem rows0_apply (X : Cert.Stages.Arr Ideal Cert.ReferenceIdeal.S50000x128 .f32) (W : Cert.Stages.Arr Ideal Cert.ReferenceIdeal.S128x128 .f32)
    (xb : Vec Ideal S5000x128 .f32) (wb : Vec Ideal S128x128 .f32) (n : Nat)
    (hx : ∀ (p : Fin 5000) (k : Fin 128) (r : Fin 50000), r.val = n * 5000 + p.val → xb (ix2 p k) = X (ix2 r k))
    (hw : ∀ k q : Fin 128, wb (ix2 k q) = W (ix2 k q))
    (p : Fin 5000) (q : Fin 128) (r : Fin 50000) (hr : r.val = n * 5000 + p.val) :
    k0_pay1 (F := Ideal) xb wb (ix2 p q) = Cert.Stages.linS (F := Ideal) X W (ix2 r q) := by
  rw [pay0_apply, linS_apply]
  exact Finset.sum_congr rfl fun k _ => by rw [hx p k r hr, hw k q]

theorem iblk0_0_apply (c : Dev nD) (t : Fin cfg0.N) (p : Fin 5000) (k : Fin 128) (r : Fin 50000)
    (hr : r.val = t.val * 5000 + p.val) :
    (iblk0 V c 0 t : Vec Ideal S5000x128 .f32) (ix2 p k)
      = (V c (Pipeline.arrRef spec0 0) : Cert.Stages.Arr Ideal Cert.ReferenceIdeal.S50000x128 .f32) (ix2 r k) := by
  obtain ⟨e0, e1, -⟩ := idx_facts0 t
  show (V c (Pipeline.arrRef spec0 0) : Cert.Stages.Arr Ideal Cert.ReferenceIdeal.S50000x128 .f32)
      (((cfg0.win 0).blk t).view.emb (ix2 p k)) = _
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

theorem iblk0_1_apply (c : Dev nD) (t : Fin cfg0.N) (k q : Fin 128) :
    (iblk0 V c 1 t : Vec Ideal S128x128 .f32) (ix2 k q)
      = (V c (Pipeline.arrRef spec0 1) : Cert.Stages.Arr Ideal Cert.ReferenceIdeal.S128x128 .f32) (ix2 k q) := by
  obtain ⟨-, -, e2, e3, -⟩ := idx_facts0 t
  show (V c (Pipeline.arrRef spec0 1) : Cert.Stages.Arr Ideal Cert.ReferenceIdeal.S128x128 .f32)
      (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

theorem emb0_2 (t : Fin cfg0.N) (p : Fin 5000) (q : Fin 128) (r : Fin 50000) (hr : r.val = t.val * 5000 + p.val) :
    ((cfg0.win 2).blk t).view.emb (ix2 p q) = (ix2 r q : Cert.ReferenceIdeal.S50000x128.Idx) := by
  obtain ⟨-, -, -, -, e4, e5⟩ := idx_facts0 t
  refine funext fun a => Fin.ext ?_
  match a with
  | ⟨0, _⟩ => show win0_2.index t (0 : Fin 2) * 5000 + 1 * p.val = r.val; omega
  | ⟨1, _⟩ => show win0_2.index t (1 : Fin 2) * 128 + 1 * q.val = q.val; omega

theorem flushed0_eq (c : Dev nD) (t : Fin cfg0.N) :
    (dat0 (F := Ideal) V c).flushed 2 t
      = ((cfg0.win 2).blk t).view.read (Elt Ideal)
          (Cert.Stages.linS (F := Ideal) (V c (Pipeline.arrRef spec0 0)) (V c (Pipeline.arrRef spec0 1))) := by
  show (cfg0.win 2).cut (grid0.coords t) ((dat0 V c).after 2 t) = _
  rw [after0_2]
  unfold out0_2
  rw [View.canon_unit_zero hz0]
  simp only [View.ld_unit_zero (S := S5000x128) hz0, View.ld_unit_zero (S := S128x128) hz0]
  funext j
  obtain ⟨p, q, rfl⟩ : ∃ (p : Fin 5000) (q : Fin 128), j = ix2 p q := ⟨j 0, j 1, eq_ix2 j⟩
  have ht : t.val < 10 := Nat.lt_of_lt_of_eq t.isLt N_0
  have hp : p.val < 5000 := p.isLt
  show k0_pay1 (F := Ideal) (iblk0 V c 0 t) (iblk0 V c 1 t) (ix2 p q)
      = Cert.Stages.linS (F := Ideal) (V c (Pipeline.arrRef spec0 0)) (V c (Pipeline.arrRef spec0 1))
          (((cfg0.win 2).blk t).view.emb (ix2 p q))
  refine (rows0_apply (V c (Pipeline.arrRef spec0 0)) (V c (Pipeline.arrRef spec0 1)) (iblk0 V c 0 t) (iblk0 V c 1 t) t.val
      (fun p k r hr => iblk0_0_apply V c t p k r hr) (fun k q => iblk0_1_apply V c t k q) p q
      ⟨t.val * 5000 + p.val, by omega⟩ rfl).trans ?_
  exact congrArg (Cert.Stages.linS (F := Ideal) (V c (Pipeline.arrRef spec0 0)) (V c (Pipeline.arrRef spec0 1)))
    (emb0_2 t p q ⟨t.val * 5000 + p.val, by omega⟩ rfl).symm

theorem mem_blk0 (t : Fin cfg0.N) (i : Cert.ReferenceIdeal.S50000x128.Idx) :
    i ∈ ((cfg0.win 2).blk t).view.set
      ↔ ∀ a : Fin 2, win0_2.index t a * S5000x128.size a ≤ (i a).val ∧ (i a).val < win0_2.index t a * S5000x128.size a + S5000x128.size a := by
  show i ∈ ((View.whole (Pipeline.arrRef spec0 2)).slice (win0_2.rect t)).set ↔ _
  rw [View.set_slice_whole, Rect.mem_set_unit]
  exact Iff.rfl

theorem cover0 (i : Cert.ReferenceIdeal.S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, e4, e5⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

theorem lin0_final (c : Dev nD) :
    (dat0 (F := Ideal) V c).arrAt 2 cfg0.N
      = Cert.Stages.linS (F := Ideal) (V c (Pipeline.arrRef spec0 0)) (V c (Pipeline.arrRef spec0 1)) :=
  (dat0 (F := Ideal) V c).arrAt_eq_of_cover 2
    (Cert.Stages.linS (F := Ideal) (V c (Pipeline.arrRef spec0 0)) (V c (Pipeline.arrRef spec0 1)))
    (fun t _ => flushed0_eq V c t) cover0

end Cert.KernelIdeal.Hand

end
-- ==== Proof.ValLin2.lean ====
import proofs.«429942_j15479062135041_1_alg».proof.Proof.KIReg2
import proofs.«429942_j15479062135041_1_alg».proof.Proof.ValLin0
import proofs.«429942_j15479062135041_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem pay2_apply (x : Vec Ideal S5000x128 .f32) (w : Vec Ideal S128x128 .f32) (p : Fin 5000) (q : Fin 128) :
    k2_pay1 (F := Ideal) x w (ix2 p q) = ∑ k : Fin 128, x (ix2 p k) * w (ix2 k q) := by
  unfold k2_pay1
  try simp only [shapeCast_self]
  exact blk_matmul_apply _ _ p q

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem rows2_apply (X : Cert.Stages.Arr Ideal Cert.ReferenceIdeal.S50000x128 .f32) (W : Cert.Stages.Arr Ideal Cert.ReferenceIdeal.S128x128 .f32)
    (xb : Vec Ideal S5000x128 .f32) (wb : Vec Ideal S128x128 .f32) (n : Nat)
    (hx : ∀ (p : Fin 5000) (k : Fin 128) (r : Fin 50000), r.val = n * 5000 + p.val → xb (ix2 p k) = X (ix2 r k))
    (hw : ∀ k q : Fin 128, wb (ix2 k q) = W (ix2 k q))
    (p : Fin 5000) (q : Fin 128) (r : Fin 50000) (hr : r.val = n * 5000 + p.val) :
    k2_pay1 (F := Ideal) xb wb (ix2 p q) = Cert.Stages.linS (F := Ideal) X W (ix2 r q) := by
  rw [pay2_apply, linS_apply]
  exact Finset.sum_congr rfl fun k _ => by rw [hx p k r hr, hw k q]

theorem iblk2_0_apply (c : Dev nD) (t : Fin cfg2.N) (p : Fin 5000) (k : Fin 128) (r : Fin 50000)
    (hr : r.val = t.val * 5000 + p.val) :
    (iblk2 V c 0 t : Vec Ideal S5000x128 .f32) (ix2 p k)
      = (V c (Pipeline.arrRef spec2 0) : Cert.Stages.Arr Ideal Cert.ReferenceIdeal.S50000x128 .f32) (ix2 r k) := by
  obtain ⟨e0, e1, -⟩ := idx_facts2 t
  show (V c (Pipeline.arrRef spec2 0) : Cert.Stages.Arr Ideal Cert.ReferenceIdeal.S50000x128 .f32)
      (((cfg2.win 0).blk t).view.emb (ix2 p k)) = _
  refine congrArg _ (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

theorem iblk2_1_apply (c : Dev nD) (t : Fin cfg2.N) (k q : Fin 128) :
    (iblk2 V c 1 t : Vec Ideal S128x128 .f32) (ix2 k q)
      = (V c (Pipeline.arrRef spec2 1) : Cert.Stages.Arr Ideal Cert.ReferenceIdeal.S128x128 .f32) (ix2 k q) := by
  obtain ⟨-, -, e2, e3, -⟩ := idx_facts2 t
  show (V c (Pipeline.arrRef spec2 1) : Cert.Stages.Arr Ideal Cert.ReferenceIdeal.S128x128 .f32)
      (((cfg2.win 1).blk t).view.emb (ix2 k q)) = _
  refine congrArg _ (funext fun a => Fin.ext ?_)
  match a with
  | ⟨0, _⟩ => show win2_1.index t (0 : Fin 2) * 128 + 1 * k.val = k.val; omega
  | ⟨1, _⟩ => show win2_1.index t (1 : Fin 2) * 128 + 1 * q.val = q.val; omega

theorem emb2_2 (t : Fin cfg2.N) (p : Fin 5000) (q : Fin 128) (r : Fin 50000) (hr : r.val = t.val * 5000 + p.val) :
    ((cfg2.win 2).blk t).view.emb (ix2 p q) = (ix2 r q : Cert.ReferenceIdeal.S50000x128.Idx) := by
  obtain ⟨-, -, -, -, e4, e5⟩ := idx_facts2 t
  refine funext fun a => Fin.ext ?_
  match a with
  | ⟨0, _⟩ => show win2_2.index t (0 : Fin 2) * 5000 + 1 * p.val = r.val; omega
  | ⟨1, _⟩ => show win2_2.index t (1 : Fin 2) * 128 + 1 * q.val = q.val; omega

theorem flushed2_eq (c : Dev nD) (t : Fin cfg2.N) :
    (dat2 (F := Ideal) V c).flushed 2 t
      = ((cfg2.win 2).blk t).view.read (Elt Ideal)
          (Cert.Stages.linS (F := Ideal) (V c (Pipeline.arrRef spec2 0)) (V c (Pipeline.arrRef spec2 1))) := by
  show (cfg2.win 2).cut (grid2.coords t) ((dat2 V c).after 2 t) = _
  rw [after2_2]
  unfold out2_2
  rw [View.canon_unit_zero hz0]
  simp only [View.ld_unit_zero (S := S5000x128) hz0, View.ld_unit_zero (S := S128x128) hz0]
  funext j
  obtain ⟨p, q, rfl⟩ : ∃ (p : Fin 5000) (q : Fin 128), j = ix2 p q := ⟨j 0, j 1, eq_ix2 j⟩
  have ht : t.val < 10 := Nat.lt_of_lt_of_eq t.isLt N_2
  have hp : p.val < 5000 := p.isLt
  show k2_pay1 (F := Ideal) (iblk2 V c 0 t) (iblk2 V c 1 t) (ix2 p q)
      = Cert.Stages.linS (F := Ideal) (V c (Pipeline.arrRef spec2 0)) (V c (Pipeline.arrRef spec2 1))
          (((cfg2.win 2).blk t).view.emb (ix2 p q))
  refine (rows2_apply (V c (Pipeline.arrRef spec2 0)) (V c (Pipeline.arrRef spec2 1)) (iblk2 V c 0 t) (iblk2 V c 1 t) t.val
      (fun p k r hr => iblk2_0_apply V c t p k r hr) (fun k q => iblk2_1_apply V c t k q) p q
      ⟨t.val * 5000 + p.val, by omega⟩ rfl).trans ?_
  exact congrArg (Cert.Stages.linS (F := Ideal) (V c (Pipeline.arrRef spec2 0)) (V c (Pipeline.arrRef spec2 1)))
    (emb2_2 t p q ⟨t.val * 5000 + p.val, by omega⟩ rfl).symm

theorem mem_blk2 (t : Fin cfg2.N) (i : Cert.ReferenceIdeal.S50000x128.Idx) :
    i ∈ ((cfg2.win 2).blk t).view.set
      ↔ ∀ a : Fin 2, win2_2.index t a * S5000x128.size a ≤ (i a).val ∧ (i a).val < win2_2.index t a * S5000x128.size a + S5000x128.size a := by
  show i ∈ ((View.whole (Pipeline.arrRef spec2 2)).slice (win2_2.rect t)).set ↔ _
  rw [View.set_slice_whole, Rect.mem_set_unit]
  exact Iff.rfl

theorem cover2 (i : Cert.ReferenceIdeal.S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, e4, e5⟩ := idx_facts2 t
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

theorem lin2_final (c : Dev nD) :
    (dat2 (F := Ideal) V c).arrAt 2 cfg2.N
      = Cert.Stages.linS (F := Ideal) (V c (Pipeline.arrRef spec2 0)) (V c (Pipeline.arrRef spec2 1)) :=
  (dat2 (F := Ideal) V c).arrAt_eq_of_cover 2
    (Cert.Stages.linS (F := Ideal) (V c (Pipeline.arrRef spec2 0)) (V c (Pipeline.arrRef spec2 1)))
    (fun t _ => flushed2_eq V c t) cover2

end Cert.KernelIdeal.Hand

end
-- ==== Proof.ValLin4.lean ====
import proofs.«429942_j15479062135041_1_alg».proof.Proof.KIReg4
import proofs.«429942_j15479062135041_1_alg».proof.Proof.ValLin2
import proofs.«429942_j15479062135041_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem iblk4_0_apply (c : Dev nD) (t : Fin cfg4.N) (p : Fin 5000) (k : Fin 128) (r : Fin 50000)
    (hr : r.val = t.val * 5000 + p.val) :
    (iblk4 V c 0 t : Vec Ideal S5000x128 .f32) (ix2 p k)
      = (V c (Pipeline.arrRef spec4 0) : Cert.Stages.Arr Ideal Cert.ReferenceIdeal.S50000x128 .f32) (ix2 r k) := by
  obtain ⟨e0, e1, -⟩ := idx_facts4 t
  show (V c (Pipeline.arrRef spec4 0) : Cert.Stages.Arr Ideal Cert.ReferenceIdeal.S50000x128 .f32)
      (((cfg4.win 0).blk t).view.emb (ix2 p k)) = _
  refine congrArg _ (funext fun a => Fin.ext ?_)
  match a with
  | ⟨0, _⟩ => show win4_0.index t (0 : Fin 2) * 5000 + 1 * p.val = r.val; omega
  | ⟨1, _⟩ => show win4_0.index t (1 : Fin 2) * 128 + 1 * k.val = k.val; omega

theorem iblk4_1_apply (c : Dev nD) (t : Fin cfg4.N) (k q : Fin 128) :
    (iblk4 V c 1 t : Vec Ideal S128x128 .f32) (ix2 k q)
      = (V c (Pipeline.arrRef spec4 1) : Cert.Stages.Arr Ideal Cert.ReferenceIdeal.S128x128 .f32) (ix2 k q) := by
  obtain ⟨-, -, e2, e3, -⟩ := idx_facts4 t
  show (V c (Pipeline.arrRef spec4 1) : Cert.Stages.Arr Ideal Cert.ReferenceIdeal.S128x128 .f32)
      (((cfg4.win 1).blk t).view.emb (ix2 k q)) = _
  refine congrArg _ (funext fun a => Fin.ext ?_)
  match a with
  | ⟨0, _⟩ => show win4_1.index t (0 : Fin 2) * 128 + 1 * k.val = k.val; omega
  | ⟨1, _⟩ => show win4_1.index t (1 : Fin 2) * 128 + 1 * q.val = q.val; omega

theorem emb4_2 (t : Fin cfg4.N) (p : Fin 5000) (q : Fin 128) (r : Fin 50000) (hr : r.val = t.val * 5000 + p.val) :
    ((cfg4.win 2).blk t).view.emb (ix2 p q) = (ix2 r q : Cert.ReferenceIdeal.S50000x128.Idx) := by
  obtain ⟨-, -, -, -, e4, e5⟩ := idx_facts4 t
  refine funext fun a => Fin.ext ?_
  match a with
  | ⟨0, _⟩ => show win4_2.index t (0 : Fin 2) * 5000 + 1 * p.val = r.val; omega
  | ⟨1, _⟩ => show win4_2.index t (1 : Fin 2) * 128 + 1 * q.val = q.val; omega

/-- The payload is region 2's, so its rows are read by region 2's lemma. -/
theorem flushed4_eq (c : Dev nD) (t : Fin cfg4.N) :
    (dat4 (F := Ideal) V c).flushed 2 t
      = ((cfg4.win 2).blk t).view.read (Elt Ideal)
          (Cert.Stages.linS (F := Ideal) (V c (Pipeline.arrRef spec4 0)) (V c (Pipeline.arrRef spec4 1))) := by
  show (cfg4.win 2).cut (grid4.coords t) ((dat4 V c).after 2 t) = _
  rw [after4_2]
  unfold out2_2
  rw [View.canon_unit_zero hz0]
  simp only [View.ld_unit_zero (S := S5000x128) hz0, View.ld_unit_zero (S := S128x128) hz0]
  funext j
  obtain ⟨p, q, rfl⟩ : ∃ (p : Fin 5000) (q : Fin 128), j = ix2 p q := ⟨j 0, j 1, eq_ix2 j⟩
  have ht : t.val < 10 := Nat.lt_of_lt_of_eq t.isLt N_4
  have hp : p.val < 5000 := p.isLt
  show k4_pay1 (F := Ideal) (iblk4 V c 0 t) (iblk4 V c 1 t) (ix2 p q)
      = Cert.Stages.linS (F := Ideal) (V c (Pipeline.arrRef spec4 0)) (V c (Pipeline.arrRef spec4 1))
          (((cfg4.win 2).blk t).view.emb (ix2 p q))
  refine (rows2_apply (V c (Pipeline.arrRef spec4 0)) (V c (Pipeline.arrRef spec4 1)) (iblk4 V c 0 t) (iblk4 V c 1 t) t.val
      (fun p k r hr => iblk4_0_apply V c t p k r hr) (fun k q => iblk4_1_apply V c t k q) p q
      ⟨t.val * 5000 + p.val, by omega⟩ rfl).trans ?_
  exact congrArg (Cert.Stages.linS (F := Ideal) (V c (Pipeline.arrRef spec4 0)) (V c (Pipeline.arrRef spec4 1)))
    (emb4_2 t p q ⟨t.val * 5000 + p.val, by omega⟩ rfl).symm

theorem mem_blk4 (t : Fin cfg4.N) (i : Cert.ReferenceIdeal.S50000x128.Idx) :
    i ∈ ((cfg4.win 2).blk t).view.set
      ↔ ∀ a : Fin 2, win4_2.index t a * S5000x128.size a ≤ (i a).val ∧ (i a).val < win4_2.index t a * S5000x128.size a + S5000x128.size a := by
  show i ∈ ((View.whole (Pipeline.arrRef spec4 2)).slice (win4_2.rect t)).set ↔ _
  rw [View.set_slice_whole, Rect.mem_set_unit]
  exact Iff.rfl

theorem cover4 (i : Cert.ReferenceIdeal.S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 10 := N_4
  obtain ⟨t, ht⟩ : ∃ t : Fin cfg4.N, t.val = (i 0).val / 5000 := ⟨⟨(i 0).val / 5000, by rw [hN]; omega⟩, rfl⟩
  obtain ⟨-, -, -, -, e4, e5⟩ := idx_facts4 t
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

theorem lin4_final (c : Dev nD) :
    (dat4 (F := Ideal) V c).arrAt 2 cfg4.N
      = Cert.Stages.linS (F := Ideal) (V c (Pipeline.arrRef spec4 0)) (V c (Pipeline.arrRef spec4 1)) :=
  (dat4 (F := Ideal) V c).arrAt_eq_of_cover 2
    (Cert.Stages.linS (F := Ideal) (V c (Pipeline.arrRef spec4 0)) (V c (Pipeline.arrRef spec4 1)))
    (fun t _ => flushed4_eq V c t) cover4

end Cert.KernelIdeal.Hand

end
-- ==== Proof.ValLin6.lean ====
import proofs.«429942_j15479062135041_1_alg».proof.Proof.KIReg6
import proofs.«429942_j15479062135041_1_alg».proof.Proof.ValLin2
import proofs.«429942_j15479062135041_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

theorem iblk6_0_apply (c : Dev nD) (t : Fin cfg6.N) (p : Fin 5000) (k : Fin 128) (r : Fin 50000)
    (hr : r.val = t.val * 5000 + p.val) :
    (iblk6 V c 0 t : Vec Ideal S5000x128 .f32) (ix2 p k)
      = (V c (Pipeline.arrRef spec6 0) : Cert.Stages.Arr Ideal Cert.ReferenceIdeal.S50000x128 .f32) (ix2 r k) := by
  obtain ⟨e0, e1, -⟩ := idx_facts6 t
  show (V c (Pipeline.arrRef spec6 0) : Cert.Stages.Arr Ideal Cert.ReferenceIdeal.S50000x128 .f32)
      (((cfg6.win 0).blk t).view.emb (ix2 p k)) = _
  refine congrArg _ (funext fun a => Fin.ext ?_)
  match a with
  | ⟨0, _⟩ => show win6_0.index t (0 : Fin 2) * 5000 + 1 * p.val = r.val; omega
  | ⟨1, _⟩ => show win6_0.index t (1 : Fin 2) * 128 + 1 * k.val = k.val; omega

theorem iblk6_1_apply (c : Dev nD) (t : Fin cfg6.N) (k q : Fin 128) :
    (iblk6 V c 1 t : Vec Ideal S128x128 .f32) (ix2 k q)
      = (V c (Pipeline.arrRef spec6 1) : Cert.Stages.Arr Ideal Cert.ReferenceIdeal.S128x128 .f32) (ix2 k q) := by
  obtain ⟨-, -, e2, e3, -⟩ := idx_facts6 t
  show (V c (Pipeline.arrRef spec6 1) : Cert.Stages.Arr Ideal Cert.ReferenceIdeal.S128x128 .f32)
      (((cfg6.win 1).blk t).view.emb (ix2 k q)) = _
  refine congrArg _ (funext fun a => Fin.ext ?_)
  match a with
  | ⟨0, _⟩ => show win6_1.index t (0 : Fin 2) * 128 + 1 * k.val = k.val; omega
  | ⟨1, _⟩ => show win6_1.index t (1 : Fin 2) * 128 + 1 * q.val = q.val; omega

theorem emb6_2 (t : Fin cfg6.N) (p : Fin 5000) (q : Fin 128) (r : Fin 50000) (hr : r.val = t.val * 5000 + p.val) :
    ((cfg6.win 2).blk t).view.emb (ix2 p q) = (ix2 r q : Cert.ReferenceIdeal.S50000x128.Idx) := by
  obtain ⟨-, -, -, -, e4, e5⟩ := idx_facts6 t
  refine funext fun a => Fin.ext ?_
  match a with
  | ⟨0, _⟩ => show win6_2.index t (0 : Fin 2) * 5000 + 1 * p.val = r.val; omega
  | ⟨1, _⟩ => show win6_2.index t (1 : Fin 2) * 128 + 1 * q.val = q.val; omega

/-- The payload is region 2's, so its rows are read by region 2's lemma. -/
theorem flushed6_eq (c : Dev nD) (t : Fin cfg6.N) :
    (dat6 (F := Ideal) V c).flushed 2 t
      = ((cfg6.win 2).blk t).view.read (Elt Ideal)
          (Cert.Stages.linS (F := Ideal) (V c (Pipeline.arrRef spec6 0)) (V c (Pipeline.arrRef spec6 1))) := by
  show (cfg6.win 2).cut (grid6.coords t) ((dat6 V c).after 2 t) = _
  rw [after6_2]
  unfold out2_2
  rw [View.canon_unit_zero hz0]
  simp only [View.ld_unit_zero (S := S5000x128) hz0, View.ld_unit_zero (S := S128x128) hz0]
  funext j
  obtain ⟨p, q, rfl⟩ : ∃ (p : Fin 5000) (q : Fin 128), j = ix2 p q := ⟨j 0, j 1, eq_ix2 j⟩
  have ht : t.val < 10 := Nat.lt_of_lt_of_eq t.isLt N_6
  have hp : p.val < 5000 := p.isLt
  show k6_pay1 (F := Ideal) (iblk6 V c 0 t) (iblk6 V c 1 t) (ix2 p q)
      = Cert.Stages.linS (F := Ideal) (V c (Pipeline.arrRef spec6 0)) (V c (Pipeline.arrRef spec6 1))
          (((cfg6.win 2).blk t).view.emb (ix2 p q))
  refine (rows2_apply (V c (Pipeline.arrRef spec6 0)) (V c (Pipeline.arrRef spec6 1)) (iblk6 V c 0 t) (iblk6 V c 1 t) t.val
      (fun p k r hr => iblk6_0_apply V c t p k r hr) (fun k q => iblk6_1_apply V c t k q) p q
      ⟨t.val * 5000 + p.val, by omega⟩ rfl).trans ?_
  exact congrArg (Cert.Stages.linS (F := Ideal) (V c (Pipeline.arrRef spec6 0)) (V c (Pipeline.arrRef spec6 1)))
    (emb6_2 t p q ⟨t.val * 5000 + p.val, by omega⟩ rfl).symm

theorem mem_blk6 (t : Fin cfg6.N) (i : Cert.ReferenceIdeal.S50000x128.Idx) :
    i ∈ ((cfg6.win 2).blk t).view.set
      ↔ ∀ a : Fin 2, win6_2.index t a * S5000x128.size a ≤ (i a).val ∧ (i a).val < win6_2.index t a * S5000x128.size a + S5000x128.size a := by
  show i ∈ ((View.whole (Pipeline.arrRef spec6 2)).slice (win6_2.rect t)).set ↔ _
  rw [View.set_slice_whole, Rect.mem_set_unit]
  exact Iff.rfl

theorem cover6 (i : Cert.ReferenceIdeal.S50000x128.Idx) :
    ∃ t : Fin cfg6.N, (cfg6.win 2).flush t = true ∧ i ∈ ((cfg6.win 2).blk t).view.set := by
  have hi0 : (i 0).val < 50000 := (i 0).isLt
  have hi1 : (i 1).val < 128 := (i 1).isLt
  have hN : cfg6.N = 10 := N_6
  obtain ⟨t, ht⟩ : ∃ t : Fin cfg6.N, t.val = (i 0).val / 5000 := ⟨⟨(i 0).val / 5000, by rw [hN]; omega⟩, rfl⟩
  obtain ⟨-, -, -, -, e4, e5⟩ := idx_facts6 t
  refine ⟨t, flush6_2 t, ?_⟩
  rw [mem_blk6]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 128 ≤ (i 1).val ∧ (i 1).val < win6_2.index t (1 : Fin 2) * 128 + 128; omega

theorem lin6_final (c : Dev nD) :
    (dat6 (F := Ideal) V c).arrAt 2 cfg6.N
      = Cert.Stages.linS (F := Ideal) (V c (Pipeline.arrRef spec6 0)) (V c (Pipeline.arrRef spec6 1)) :=
  (dat6 (F := Ideal) V c).arrAt_eq_of_cover 2
    (Cert.Stages.linS (F := Ideal) (V c (Pipeline.arrRef spec6 0)) (V c (Pipeline.arrRef spec6 1)))
    (fun t _ => flushed6_eq V c t) cover6

end Cert.KernelIdeal.Hand

end
-- ==== Proof.ValFin1.lean ====
import proofs.«429942_j15479062135041_1_alg».proof.Proof.KIReg1
import proofs.«429942_j15479062135041_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

section Generic

variable {F : FTy → Type} [FloatOps F]
variable (V : (c : Dev nD) → (b : Ref sig .tc) → Buf (Elt F) ((c : Thread nD τ).loc b))

theorem colBcast1 {α : Type} {a b : ℕ} (v : (⟨2, ![a, 1]⟩ : Shape).Idx → α)
    (h : (⟨2, ![a, 1]⟩ : Shape).Broadcasts ⟨2, ![a, b]⟩) (p : Fin a) (l : Fin b) :
    broadcastTo ⟨2, ![a, b]⟩ v h (ix2 p l) = v (ix2 p (0 : Fin 1)) := by
  refine broadcastTo_apply v h (ix2 p l) (ix2 p (0 : Fin 1)) fun ax => ?_
  match ax with
  | ⟨0, _⟩ =>
    show p.val = if a = 1 then 0 else p.val
    split
    · have := p.isLt; omega
    · rfl
  | ⟨1, _⟩ => rfl

theorem payAt1 (x0 x1 : Vec F S5000x128 .f32) (x2 : Vec F S5000x1 .f32) (x3 : Vec F S1x128 .f32)
    (r : Fin 5000) (q : Fin 128) :
    k1_pay1 x0 x1 x2 x3 (ix2 r q)
      = FloatOps.maximumf
          (FloatOps.addf (FloatOps.addf (x0 (ix2 r q)) (FloatOps.mulf (x1 (ix2 r q)) (x2 (ix2 r (0 : Fin 1)))))
            (x3 (ix2 (0 : Fin 1) q)))
          (FloatOps.ofBits .f32 0x00000000#32) := by
  unfold k1_pay1
  simp only [shapeCast_self]
  show FloatOps.maximumf
      (FloatOps.addf (FloatOps.addf (x0 (ix2 r q)) (FloatOps.mulf (x1 (ix2 r q))
        (broadcastTo S5000x128 x2 broadcasts_S5000x1_S5000x128 (ix2 r q))))
        (broadcastTo S5000x128 x3 broadcasts_S1x128_S5000x128 (ix2 r q)))
      (FloatOps.ofBits .f32 0x00000000#32) = _
  rw [colBcast1 x2 broadcasts_S5000x1_S5000x128 r q,
    broadcastTo_1b_ab_apply x3 broadcasts_S1x128_S5000x128 r q]

theorem combine1 (A0 A1 : Cert.Stages.Arr F S50000x128 .f32) (A2 : Cert.Stages.Arr F S50000x1 .f32)
    (A3 : Cert.Stages.Arr F S1x128 .f32)
    (x0 x1 : Vec F S5000x128 .f32) (x2 : Vec F S5000x1 .f32) (x3 : Vec F S1x128 .f32)
    (r : Fin 5000) (q : Fin 128) (i : S50000x128.Idx)
    (e0 : x0 (ix2 r q) = A0 i) (e1 : x1 (ix2 r q) = A1 i)
    (e2 : x2 (ix2 r (0 : Fin 1)) = A2 (ix2 (n0 := 50000) (n1 := 1) (i 0) 0))
    (e3 : x3 (ix2 (0 : Fin 1) q) = A3 (ix2 (n0 := 1) (n1 := 128) 0 (i 1))) :
    k1_pay1 x0 x1 x2 x3 (ix2 r q) = Cert.Stages.finS A0 A1 A2 A3 i := by
  rw [payAt1, e0, e1, e2, e3]
  rfl

theorem hz1 : (![0, 0] : Fin 2 → Nat) = fun _ => 0 :=
  funext fun a => by match a with | ⟨0, _⟩ => rfl | ⟨1, _⟩ => rfl

theorem idx1 : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem blkRd1_0 (c : Dev nD) (t : Fin cfg1.N) (y : S5000x128.Idx) (k : S50000x128.Idx)
    (hk0 : (k 0).val = 5000 * t.val + (y 0).val) (hk1 : (k 1).val = (y 1).val) :
    (iblk1 V c 0 t : Vec F S5000x128 .f32) y
      = (V c (Pipeline.arrRef spec1 0) : Cert.Stages.Arr F S50000x128 .f32) k := by
  obtain ⟨a0, a1, -⟩ := idx1 t
  unfold iblk1
  rw [View.read_apply]
  show V c (Pipeline.arrRef spec1 0) _ = V c (Pipeline.arrRef spec1 0) _
  refine congrArg (V c (Pipeline.arrRef spec1 0)) (funext fun a => Fin.ext ?_)
  match a with
  | ⟨0, _⟩ => show win1_0.index t (0 : Fin 2) * 5000 + 1 * (y 0).val = (k 0).val; omega
  | ⟨1, _⟩ => show win1_0.index t (1 : Fin 2) * 128 + 1 * (y 1).val = (k 1).val; omega

theorem blkRd1_1 (c : Dev nD) (t : Fin cfg1.N) (y : S5000x128.Idx) (k : S50000x128.Idx)
    (hk0 : (k 0).val = 5000 * t.val + (y 0).val) (hk1 : (k 1).val = (y 1).val) :
    (iblk1 V c 1 t : Vec F S5000x128 .f32) y
      = (V c (Pipeline.arrRef spec1 1) : Cert.Stages.Arr F S50000x128 .f32) k := by
  obtain ⟨-, -, a0, a1, -⟩ := idx1 t
  unfold iblk1
  rw [View.read_apply]
  show V c (Pipeline.arrRef spec1 1) _ = V c (Pipeline.arrRef spec1 1) _
  refine congrArg (V c (Pipeline.arrRef spec1 1)) (funext fun a => Fin.ext ?_)
  match a with
  | ⟨0, _⟩ => show win1_1.index t (0 : Fin 2) * 5000 + 1 * (y 0).val = (k 0).val; omega
  | ⟨1, _⟩ => show win1_1.index t (1 : Fin 2) * 128 + 1 * (y 1).val = (k 1).val; omega

theorem blkRd1_2 (c : Dev nD) (t : Fin cfg1.N) (y : S5000x1.Idx) (k : S50000x1.Idx)
    (hk0 : (k 0).val = 5000 * t.val + (y 0).val) :
    (iblk1 V c 2 t : Vec F S5000x1 .f32) y
      = (V c (Pipeline.arrRef spec1 2) : Cert.Stages.Arr F S50000x1 .f32) k := by
  obtain ⟨-, -, -, -, a0, a1, -⟩ := idx1 t
  have hy1 : (y 1).val < 1 := (y 1).isLt
  have hk1 : (k 1).val < 1 := (k 1).isLt
  unfold iblk1
  rw [View.read_apply]
  show V c (Pipeline.arrRef spec1 2) _ = V c (Pipeline.arrRef spec1 2) _
  refine congrArg (V c (Pipeline.arrRef spec1 2)) (funext fun a => Fin.ext ?_)
  match a with
  | ⟨0, _⟩ => show win1_2.index t (0 : Fin 2) * 5000 + 1 * (y 0).val = (k 0).val; omega
  | ⟨1, _⟩ => show win1_2.index t (1 : Fin 2) * 1 + 1 * (y 1).val = (k 1).val; omega

theorem blkRd1_3 (c : Dev nD) (t : Fin cfg1.N) (y : S1x128.Idx) (k : S1x128.Idx)
    (hk1 : (k 1).val = (y 1).val) :
    (iblk1 V c 3 t : Vec F S1x128 .f32) y
      = (V c (Pipeline.arrRef spec1 3) : Cert.Stages.Arr F S1x128 .f32) k := by
  obtain ⟨-, -, -, -, -, -, a0, a1, -⟩ := idx1 t
  have hy0 : (y 0).val < 1 := (y 0).isLt
  have hk0 : (k 0).val < 1 := (k 0).isLt
  unfold iblk1
  rw [View.read_apply]
  show V c (Pipeline.arrRef spec1 3) _ = V c (Pipeline.arrRef spec1 3) _
  refine congrArg (V c (Pipeline.arrRef spec1 3)) (funext fun a => Fin.ext ?_)
  match a with
  | ⟨0, _⟩ => show win1_3.index t (0 : Fin 2) * 1 + 1 * (y 0).val = (k 0).val; omega
  | ⟨1, _⟩ => show win1_3.index t (1 : Fin 2) * 128 + 1 * (y 1).val = (k 1).val; omega

theorem embOut1 (t : Fin cfg1.N) (y : S5000x128.Idx) :
    ((((cfg1.win 4).blk t).view.emb y : S50000x128.Idx) 0).val = 5000 * t.val + (y 0).val
      ∧ ((((cfg1.win 4).blk t).view.emb y : S50000x128.Idx) 1).val = (y 1).val := by
  obtain ⟨-, -, -, -, -, -, -, -, a0, a1⟩ := idx1 t
  constructor
  · show win1_4.index t (0 : Fin 2) * 5000 + 1 * (y 0).val = _; omega
  · show win1_4.index t (1 : Fin 2) * 128 + 1 * (y 1).val = _; omega

theorem wrote1 (c : Dev nD) (t : Fin cfg1.N) :
    (dat1 V c).flushed 4 t = ((cfg1.win 4).blk t).view.read (Elt F)
      (Cert.Stages.finS (V c (Pipeline.arrRef spec1 0)) (V c (Pipeline.arrRef spec1 1))
        (V c (Pipeline.arrRef spec1 2)) (V c (Pipeline.arrRef spec1 3))) := by
  show (cfg1.win 4).cut (grid1.coords t) ((dat1 V c).after 4 t) = _
  rw [after1_4]
  unfold out1_4
  rw [View.canon_unit_zero hz1]
  simp only [View.ld_unit_zero (S := S5000x128) hz1, View.ld_unit_zero (S := S5000x1) hz1,
    View.ld_unit_zero (S := S1x128) hz1]
  refine funext fun (j : S5000x128.Idx) => ?_
  show k1_pay1 (iblk1 V c 0 t) (iblk1 V c 1 t) (iblk1 V c 2 t) (iblk1 V c 3 t) j
    = Cert.Stages.finS (V c (Pipeline.arrRef spec1 0)) (V c (Pipeline.arrRef spec1 1))
        (V c (Pipeline.arrRef spec1 2)) (V c (Pipeline.arrRef spec1 3)) (((cfg1.win 4).blk t).view.emb j)
  obtain ⟨r, q, rfl⟩ : ∃ (r : Fin 5000) (q : Fin 128), j = ix2 r q := ⟨j 0, j 1, eq_ix2 j⟩
  obtain ⟨h0, h1⟩ := embOut1 t (ix2 r q)
  exact combine1 (V c (Pipeline.arrRef spec1 0)) (V c (Pipeline.arrRef spec1 1))
    (V c (Pipeline.arrRef spec1 2)) (V c (Pipeline.arrRef spec1 3))
    (iblk1 V c 0 t) (iblk1 V c 1 t) (iblk1 V c 2 t) (iblk1 V c 3 t) r q (((cfg1.win 4).blk t).view.emb (ix2 r q))
    (blkRd1_0 V c t (ix2 r q) _ h0 h1) (blkRd1_1 V c t (ix2 r q) _ h0 h1)
    (blkRd1_2 V c t (ix2 r (0 : Fin 1)) _ h0) (blkRd1_3 V c t (ix2 (0 : Fin 1) q) _ h1)

theorem memBlk1 (t : Fin cfg1.N) (i : S50000x128.Idx) :
    i ∈ ((cfg1.win 4).blk t).view.set
      ↔ ∀ a : Fin 2, win1_4.index t a * S5000x128.size a ≤ (i a).val
          ∧ (i a).val < win1_4.index t a * S5000x128.size a + S5000x128.size a := by
  show i ∈ ((View.whole (Pipeline.arrRef spec1 4)).slice (win1_4.rect t)).set ↔ _
  rw [View.set_slice_whole, Rect.mem_set_unit]
  exact Iff.rfl

theorem cover1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, -, -, a0, a1⟩ := idx1 t
  have ht : t.val = (i 0).val / 5000 := rfl
  refine ⟨t, flush1_4 t, ?_⟩
  rw [memBlk1]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 128 ≤ (i 1).val ∧ (i 1).val < win1_4.index t (1 : Fin 2) * 128 + 128
    omega

theorem final1 (c : Dev nD) :
    (dat1 V c).arrAt 4 cfg1.N
      = Cert.Stages.finS (V c (Pipeline.arrRef spec1 0)) (V c (Pipeline.arrRef spec1 1))
          (V c (Pipeline.arrRef spec1 2)) (V c (Pipeline.arrRef spec1 3)) :=
  (dat1 V c).arrAt_eq_of_cover 4 _ (fun t _ => wrote1 V c t) cover1

end Generic

variable (V : (c : Dev nD) → (b : Ref sig .tc) → Buf (Elt Ideal) ((c : Thread nD τ).loc b))

theorem fin1_final (c : Dev nD) :
    (dat1 (F := Ideal) V c).arrAt 4 cfg1.N
      = Cert.Stages.finS (F := Ideal) (V c (Pipeline.arrRef spec1 0)) (V c (Pipeline.arrRef spec1 1))
          (V c (Pipeline.arrRef spec1 2)) (V c (Pipeline.arrRef spec1 3)) :=
  final1 V c

end Cert.KernelIdeal.Hand

end
-- ==== Proof.ValFin3.lean ====
import proofs.«429942_j15479062135041_1_alg».proof.Proof.KIReg3
import proofs.«429942_j15479062135041_1_alg».proof.Proof.ValFin1
import proofs.«429942_j15479062135041_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

section Generic

variable {F : FTy → Type} [FloatOps F]
variable (V : (c : Dev nD) → (b : Ref sig .tc) → Buf (Elt F) ((c : Thread nD τ).loc b))

theorem idx3 : ∀ t : Fin cfg3.N,
      win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

theorem blkRd3_0 (c : Dev nD) (t : Fin cfg3.N) (y : S5000x128.Idx) (k : S50000x128.Idx)
    (hk0 : (k 0).val = 5000 * t.val + (y 0).val) (hk1 : (k 1).val = (y 1).val) :
    (iblk3 V c 0 t : Vec F S5000x128 .f32) y
      = (V c (Pipeline.arrRef spec3 0) : Cert.Stages.Arr F S50000x128 .f32) k := by
  obtain ⟨a0, a1, -⟩ := idx3 t
  unfold iblk3
  rw [View.read_apply]
  show V c (Pipeline.arrRef spec3 0) _ = V c (Pipeline.arrRef spec3 0) _
  refine congrArg (V c (Pipeline.arrRef spec3 0)) (funext fun a => Fin.ext ?_)
  match a with
  | ⟨0, _⟩ => show win3_0.index t (0 : Fin 2) * 5000 + 1 * (y 0).val = (k 0).val; omega
  | ⟨1, _⟩ => show win3_0.index t (1 : Fin 2) * 128 + 1 * (y 1).val = (k 1).val; omega

theorem blkRd3_1 (c : Dev nD) (t : Fin cfg3.N) (y : S5000x128.Idx) (k : S50000x128.Idx)
    (hk0 : (k 0).val = 5000 * t.val + (y 0).val) (hk1 : (k 1).val = (y 1).val) :
    (iblk3 V c 1 t : Vec F S5000x128 .f32) y
      = (V c (Pipeline.arrRef spec3 1) : Cert.Stages.Arr F S50000x128 .f32) k := by
  obtain ⟨-, -, a0, a1, -⟩ := idx3 t
  unfold iblk3
  rw [View.read_apply]
  show V c (Pipeline.arrRef spec3 1) _ = V c (Pipeline.arrRef spec3 1) _
  refine congrArg (V c (Pipeline.arrRef spec3 1)) (funext fun a => Fin.ext ?_)
  match a with
  | ⟨0, _⟩ => show win3_1.index t (0 : Fin 2) * 5000 + 1 * (y 0).val = (k 0).val; omega
  | ⟨1, _⟩ => show win3_1.index t (1 : Fin 2) * 128 + 1 * (y 1).val = (k 1).val; omega

theorem blkRd3_2 (c : Dev nD) (t : Fin cfg3.N) (y : S5000x1.Idx) (k : S50000x1.Idx)
    (hk0 : (k 0).val = 5000 * t.val + (y 0).val) :
    (iblk3 V c 2 t : Vec F S5000x1 .f32) y
      = (V c (Pipeline.arrRef spec3 2) : Cert.Stages.Arr F S50000x1 .f32) k := by
  obtain ⟨-, -, -, -, a0, a1, -⟩ := idx3 t
  have hy1 : (y 1).val < 1 := (y 1).isLt
  have hk1 : (k 1).val < 1 := (k 1).isLt
  unfold iblk3
  rw [View.read_apply]
  show V c (Pipeline.arrRef spec3 2) _ = V c (Pipeline.arrRef spec3 2) _
  refine congrArg (V c (Pipeline.arrRef spec3 2)) (funext fun a => Fin.ext ?_)
  match a with
  | ⟨0, _⟩ => show win3_2.index t (0 : Fin 2) * 5000 + 1 * (y 0).val = (k 0).val; omega
  | ⟨1, _⟩ => show win3_2.index t (1 : Fin 2) * 1 + 1 * (y 1).val = (k 1).val; omega

theorem blkRd3_3 (c : Dev nD) (t : Fin cfg3.N) (y : S1x128.Idx) (k : S1x128.Idx)
    (hk1 : (k 1).val = (y 1).val) :
    (iblk3 V c 3 t : Vec F S1x128 .f32) y
      = (V c (Pipeline.arrRef spec3 3) : Cert.Stages.Arr F S1x128 .f32) k := by
  obtain ⟨-, -, -, -, -, -, a0, a1, -⟩ := idx3 t
  have hy0 : (y 0).val < 1 := (y 0).isLt
  have hk0 : (k 0).val < 1 := (k 0).isLt
  unfold iblk3
  rw [View.read_apply]
  show V c (Pipeline.arrRef spec3 3) _ = V c (Pipeline.arrRef spec3 3) _
  refine congrArg (V c (Pipeline.arrRef spec3 3)) (funext fun a => Fin.ext ?_)
  match a with
  | ⟨0, _⟩ => show win3_3.index t (0 : Fin 2) * 1 + 1 * (y 0).val = (k 0).val; omega
  | ⟨1, _⟩ => show win3_3.index t (1 : Fin 2) * 128 + 1 * (y 1).val = (k 1).val; omega

theorem embOut3 (t : Fin cfg3.N) (y : S5000x128.Idx) :
    ((((cfg3.win 4).blk t).view.emb y : S50000x128.Idx) 0).val = 5000 * t.val + (y 0).val
      ∧ ((((cfg3.win 4).blk t).view.emb y : S50000x128.Idx) 1).val = (y 1).val := by
  obtain ⟨-, -, -, -, -, -, -, -, a0, a1⟩ := idx3 t
  constructor
  · show win3_4.index t (0 : Fin 2) * 5000 + 1 * (y 0).val = _; omega
  · show win3_4.index t (1 : Fin 2) * 128 + 1 * (y 1).val = _; omega

theorem wrote3 (c : Dev nD) (t : Fin cfg3.N) :
    (dat3 V c).flushed 4 t = ((cfg3.win 4).blk t).view.read (Elt F)
      (Cert.Stages.finS (V c (Pipeline.arrRef spec3 0)) (V c (Pipeline.arrRef spec3 1))
        (V c (Pipeline.arrRef spec3 2)) (V c (Pipeline.arrRef spec3 3))) := by
  show (cfg3.win 4).cut (grid3.coords t) ((dat3 V c).after 4 t) = _
  rw [after3_4]
  unfold out1_4
  rw [View.canon_unit_zero hz1]
  simp only [View.ld_unit_zero (S := S5000x128) hz1, View.ld_unit_zero (S := S5000x1) hz1,
    View.ld_unit_zero (S := S1x128) hz1]
  refine funext fun (j : S5000x128.Idx) => ?_
  show k3_pay1 (iblk3 V c 0 t) (iblk3 V c 1 t) (iblk3 V c 2 t) (iblk3 V c 3 t) j
    = Cert.Stages.finS (V c (Pipeline.arrRef spec3 0)) (V c (Pipeline.arrRef spec3 1))
        (V c (Pipeline.arrRef spec3 2)) (V c (Pipeline.arrRef spec3 3)) (((cfg3.win 4).blk t).view.emb j)
  obtain ⟨r, q, rfl⟩ : ∃ (r : Fin 5000) (q : Fin 128), j = ix2 r q := ⟨j 0, j 1, eq_ix2 j⟩
  obtain ⟨h0, h1⟩ := embOut3 t (ix2 r q)
  exact combine1 (V c (Pipeline.arrRef spec3 0)) (V c (Pipeline.arrRef spec3 1))
    (V c (Pipeline.arrRef spec3 2)) (V c (Pipeline.arrRef spec3 3))
    (iblk3 V c 0 t) (iblk3 V c 1 t) (iblk3 V c 2 t) (iblk3 V c 3 t) r q (((cfg3.win 4).blk t).view.emb (ix2 r q))
    (blkRd3_0 V c t (ix2 r q) _ h0 h1) (blkRd3_1 V c t (ix2 r q) _ h0 h1)
    (blkRd3_2 V c t (ix2 r (0 : Fin 1)) _ h0) (blkRd3_3 V c t (ix2 (0 : Fin 1) q) _ h1)

theorem memBlk3 (t : Fin cfg3.N) (i : S50000x128.Idx) :
    i ∈ ((cfg3.win 4).blk t).view.set
      ↔ ∀ a : Fin 2, win3_4.index t a * S5000x128.size a ≤ (i a).val
          ∧ (i a).val < win3_4.index t a * S5000x128.size a + S5000x128.size a := by
  show i ∈ ((View.whole (Pipeline.arrRef spec3 4)).slice (win3_4.rect t)).set ↔ _
  rw [View.set_slice_whole, Rect.mem_set_unit]
  exact Iff.rfl

theorem cover3 (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨-, -, -, -, -, -, -, -, a0, a1⟩ := idx3 t
  have ht : t.val = (i 0).val / 5000 := rfl
  refine ⟨t, flush3_4 t, ?_⟩
  rw [memBlk3]
  intro a
  match a with
  | ⟨0, _⟩ =>
    show win3_4.index t (0 : Fin 2) * 5000 ≤ (i 0).val ∧ (i 0).val < win3_4.index t (0 : Fin 2) * 5000 + 5000
    omega
  | ⟨1, _⟩ =>
    show win3_4.index t (1 : Fin 2) * 128 ≤ (i 1).val ∧ (i 1).val < win3_4.index t (1 : Fin 2) * 128 + 128
    omega

theorem final3 (c : Dev nD) :
    (dat3 V c).arrAt 4 cfg3.N
      = Cert.Stages.finS (V c (Pipeline.arrRef spec3 0)) (V c (Pipeline.arrRef spec3 1))
          (V c (Pipeline.arrRef spec3 2)) (V c (Pipeline.arrRef spec3 3)) :=
  (dat3 V c).arrAt_eq_of_cover 4 _ (fun t _ => wrote3 V c t) cover3

end Generic

variable (V : (c : Dev nD) → (b : Ref sig .tc) → Buf (Elt Ideal) ((c : Thread nD τ).loc b))

theorem fin3_final (c : Dev nD) :
    (dat3 (F := Ideal) V c).arrAt 4 cfg3.N
      = Cert.Stages.finS (F := Ideal) (V c (Pipeline.arrRef spec3 0)) (V c (Pipeline.arrRef spec3 1))
          (V c (Pipeline.arrRef spec3 2)) (V c (Pipeline.arrRef spec3 3)) :=
  final3 V c

end Cert.KernelIdeal.Hand

end
-- ==== Proof.ValFin5.lean ====
import proofs.«429942_j15479062135041_1_alg».proof.Proof.KIReg5
import proofs.«429942_j15479062135041_1_alg».proof.Proof.ValFin1
import proofs.«429942_j15479062135041_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

section Generic

variable {F : FTy → Type} [FloatOps F]
variable (V : (c : Dev nD) → (b : Ref sig .tc) → Buf (Elt F) ((c : Thread nD τ).loc b))

theorem idx5 : ∀ t : Fin cfg5.N,
      win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

theorem blkRd5_0 (c : Dev nD) (t : Fin cfg5.N) (y : S5000x128.Idx) (k : S50000x128.Idx)
    (hk0 : (k 0).val = 5000 * t.val + (y 0).val) (hk1 : (k 1).val = (y 1).val) :
    (iblk5 V c 0 t : Vec F S5000x128 .f32) y
      = (V c (Pipeline.arrRef spec5 0) : Cert.Stages.Arr F S50000x128 .f32) k := by
  obtain ⟨a0, a1, -⟩ := idx5 t
  unfold iblk5
  rw [View.read_apply]
  show V c (Pipeline.arrRef spec5 0) _ = V c (Pipeline.arrRef spec5 0) _
  refine congrArg (V c (Pipeline.arrRef spec5 0)) (funext fun a => Fin.ext ?_)
  match a with
  | ⟨0, _⟩ => show win5_0.index t (0 : Fin 2) * 5000 + 1 * (y 0).val = (k 0).val; omega
  | ⟨1, _⟩ => show win5_0.index t (1 : Fin 2) * 128 + 1 * (y 1).val = (k 1).val; omega

theorem blkRd5_1 (c : Dev nD) (t : Fin cfg5.N) (y : S5000x128.Idx) (k : S50000x128.Idx)
    (hk0 : (k 0).val = 5000 * t.val + (y 0).val) (hk1 : (k 1).val = (y 1).val) :
    (iblk5 V c 1 t : Vec F S5000x128 .f32) y
      = (V c (Pipeline.arrRef spec5 1) : Cert.Stages.Arr F S50000x128 .f32) k := by
  obtain ⟨-, -, a0, a1, -⟩ := idx5 t
  unfold iblk5
  rw [View.read_apply]
  show V c (Pipeline.arrRef spec5 1) _ = V c (Pipeline.arrRef spec5 1) _
  refine congrArg (V c (Pipeline.arrRef spec5 1)) (funext fun a => Fin.ext ?_)
  match a with
  | ⟨0, _⟩ => show win5_1.index t (0 : Fin 2) * 5000 + 1 * (y 0).val = (k 0).val; omega
  | ⟨1, _⟩ => show win5_1.index t (1 : Fin 2) * 128 + 1 * (y 1).val = (k 1).val; omega

theorem blkRd5_2 (c : Dev nD) (t : Fin cfg5.N) (y : S5000x1.Idx) (k : S50000x1.Idx)
    (hk0 : (k 0).val = 5000 * t.val + (y 0).val) :
    (iblk5 V c 2 t : Vec F S5000x1 .f32) y
      = (V c (Pipeline.arrRef spec5 2) : Cert.Stages.Arr F S50000x1 .f32) k := by
  obtain ⟨-, -, -, -, a0, a1, -⟩ := idx5 t
  have hy1 : (y 1).val < 1 := (y 1).isLt
  have hk1 : (k 1).val < 1 := (k 1).isLt
  unfold iblk5
  rw [View.read_apply]
  show V c (Pipeline.arrRef spec5 2) _ = V c (Pipeline.arrRef spec5 2) _
  refine congrArg (V c (Pipeline.arrRef spec5 2)) (funext fun a => Fin.ext ?_)
  match a with
  | ⟨0, _⟩ => show win5_2.index t (0 : Fin 2) * 5000 + 1 * (y 0).val = (k 0).val; omega
  | ⟨1, _⟩ => show win5_2.index t (1 : Fin 2) * 1 + 1 * (y 1).val = (k 1).val; omega

theorem blkRd5_3 (c : Dev nD) (t : Fin cfg5.N) (y : S1x128.Idx) (k : S1x128.Idx)
    (hk1 : (k 1).val = (y 1).val) :
    (iblk5 V c 3 t : Vec F S1x128 .f32) y
      = (V c (Pipeline.arrRef spec5 3) : Cert.Stages.Arr F S1x128 .f32) k := by
  obtain ⟨-, -, -, -, -, -, a0, a1, -⟩ := idx5 t
  have hy0 : (y 0).val < 1 := (y 0).isLt
  have hk0 : (k 0).val < 1 := (k 0).isLt
  unfold iblk5
  rw [View.read_apply]
  show V c (Pipeline.arrRef spec5 3) _ = V c (Pipeline.arrRef spec5 3) _
  refine congrArg (V c (Pipeline.arrRef spec5 3)) (funext fun a => Fin.ext ?_)
  match a with
  | ⟨0, _⟩ => show win5_3.index t (0 : Fin 2) * 1 + 1 * (y 0).val = (k 0).val; omega
  | ⟨1, _⟩ => show win5_3.index t (1 : Fin 2) * 128 + 1 * (y 1).val = (k 1).val; omega

theorem embOut5 (t : Fin cfg5.N) (y : S5000x128.Idx) :
    ((((cfg5.win 4).blk t).view.emb y : S50000x128.Idx) 0).val = 5000 * t.val + (y 0).val
      ∧ ((((cfg5.win 4).blk t).view.emb y : S50000x128.Idx) 1).val = (y 1).val := by
  obtain ⟨-, -, -, -, -, -, -, -, a0, a1⟩ := idx5 t
  constructor
  · show win5_4.index t (0 : Fin 2) * 5000 + 1 * (y 0).val = _; omega
  · show win5_4.index t (1 : Fin 2) * 128 + 1 * (y 1).val = _; omega

theorem wrote5 (c : Dev nD) (t : Fin cfg5.N) :
    (dat5 V c).flushed 4 t = ((cfg5.win 4).blk t).view.read (Elt F)
      (Cert.Stages.finS (V c (Pipeline.arrRef spec5 0)) (V c (Pipeline.arrRef spec5 1))
        (V c (Pipeline.arrRef spec5 2)) (V c (Pipeline.arrRef spec5 3))) := by
  show (cfg5.win 4).cut (grid5.coords t) ((dat5 V c).after 4 t) = _
  rw [after5_4]
  unfold out1_4
  rw [View.canon_unit_zero hz1]
  simp only [View.ld_unit_zero (S := S5000x128) hz1, View.ld_unit_zero (S := S5000x1) hz1,
    View.ld_unit_zero (S := S1x128) hz1]
  refine funext fun (j : S5000x128.Idx) => ?_
  show k5_pay1 (iblk5 V c 0 t) (iblk5 V c 1 t) (iblk5 V c 2 t) (iblk5 V c 3 t) j
    = Cert.Stages.finS (V c (Pipeline.arrRef spec5 0)) (V c (Pipeline.arrRef spec5 1))
        (V c (Pipeline.arrRef spec5 2)) (V c (Pipeline.arrRef spec5 3)) (((cfg5.win 4).blk t).view.emb j)
  obtain ⟨r, q, rfl⟩ : ∃ (r : Fin 5000) (q : Fin 128), j = ix2 r q := ⟨j 0, j 1, eq_ix2 j⟩
  obtain ⟨h0, h1⟩ := embOut5 t (ix2 r q)
  exact combine1 (V c (Pipeline.arrRef spec5 0)) (V c (Pipeline.arrRef spec5 1))
    (V c (Pipeline.arrRef spec5 2)) (V c (Pipeline.arrRef spec5 3))
    (iblk5 V c 0 t) (iblk5 V c 1 t) (iblk5 V c 2 t) (iblk5 V c 3 t) r q (((cfg5.win 4).blk t).view.emb (ix2 r q))
    (blkRd5_0 V c t (ix2 r q) _ h0 h1) (blkRd5_1 V c t (ix2 r q) _ h0 h1)
    (blkRd5_2 V c t (ix2 r (0 : Fin 1)) _ h0) (blkRd5_3 V c t (ix2 (0 : Fin 1) q) _ h1)

theorem memBlk5 (t : Fin cfg5.N) (i : S50000x128.Idx) :
    i ∈ ((cfg5.win 4).blk t).view.set
      ↔ ∀ a : Fin 2, win5_4.index t a * S5000x128.size a ≤ (i a).val
          ∧ (i a).val < win5_4.index t a * S5000x128.size a + S5000x128.size a := by
  show i ∈ ((View.whole (Pipeline.arrRef spec5 4)).slice (win5_4.rect t)).set ↔ _
  rw [View.set_slice_whole, Rect.mem_set_unit]
  exact Iff.rfl

theorem cover5 (i : S50000x128.Idx) :
    ∃ t : Fin cfg5.N, (cfg5.win 4).flush t = true ∧ i ∈ ((cfg5.win 4).blk t).view.set := by
  have hi0 : (i 0).val < 50000 := (i 0).isLt
  have hi1 : (i 1).val < 128 := (i 1).isLt
  have hN : cfg5.N = 10 := N_5
  let t : Fin cfg5.N := ⟨(i 0).val / 5000, by rw [hN]; omega⟩
  obtain ⟨-, -, -, -, -, -, -, -, a0, a1⟩ := idx5 t
  have ht : t.val = (i 0).val / 5000 := rfl
  refine ⟨t, flush5_4 t, ?_⟩
  rw [memBlk5]
  intro a
  match a with
  | ⟨0, _⟩ =>
    show win5_4.index t (0 : Fin 2) * 5000 ≤ (i 0).val ∧ (i 0).val < win5_4.index t (0 : Fin 2) * 5000 + 5000
    omega
  | ⟨1, _⟩ =>
    show win5_4.index t (1 : Fin 2) * 128 ≤ (i 1).val ∧ (i 1).val < win5_4.index t (1 : Fin 2) * 128 + 128
    omega

theorem final5 (c : Dev nD) :
    (dat5 V c).arrAt 4 cfg5.N
      = Cert.Stages.finS (V c (Pipeline.arrRef spec5 0)) (V c (Pipeline.arrRef spec5 1))
          (V c (Pipeline.arrRef spec5 2)) (V c (Pipeline.arrRef spec5 3)) :=
  (dat5 V c).arrAt_eq_of_cover 4 _ (fun t _ => wrote5 V c t) cover5

end Generic

variable (V : (c : Dev nD) → (b : Ref sig .tc) → Buf (Elt Ideal) ((c : Thread nD τ).loc b))

theorem fin5_final (c : Dev nD) :
    (dat5 (F := Ideal) V c).arrAt 4 cfg5.N
      = Cert.Stages.finS (F := Ideal) (V c (Pipeline.arrRef spec5 0)) (V c (Pipeline.arrRef spec5 1))
          (V c (Pipeline.arrRef spec5 2)) (V c (Pipeline.arrRef spec5 3)) :=
  final5 V c

end Cert.KernelIdeal.Hand

end
-- ==== Proof.ValFin7.lean ====
import proofs.«429942_j15479062135041_1_alg».proof.Proof.KIReg7
import proofs.«429942_j15479062135041_1_alg».proof.Proof.ValFin1
import proofs.«429942_j15479062135041_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

section Generic

variable {F : FTy → Type} [FloatOps F]
variable (V : (c : Dev nD) → (b : Ref sig .tc) → Buf (Elt F) ((c : Thread nD τ).loc b))

theorem idx7 : ∀ t : Fin cfg7.N,
      win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

theorem blkRd7_0 (c : Dev nD) (t : Fin cfg7.N) (y : S5000x128.Idx) (k : S50000x128.Idx)
    (hk0 : (k 0).val = 5000 * t.val + (y 0).val) (hk1 : (k 1).val = (y 1).val) :
    (iblk7 V c 0 t : Vec F S5000x128 .f32) y
      = (V c (Pipeline.arrRef spec7 0) : Cert.Stages.Arr F S50000x128 .f32) k := by
  obtain ⟨a0, a1, -⟩ := idx7 t
  unfold iblk7
  rw [View.read_apply]
  show V c (Pipeline.arrRef spec7 0) _ = V c (Pipeline.arrRef spec7 0) _
  refine congrArg (V c (Pipeline.arrRef spec7 0)) (funext fun a => Fin.ext ?_)
  match a with
  | ⟨0, _⟩ => show win7_0.index t (0 : Fin 2) * 5000 + 1 * (y 0).val = (k 0).val; omega
  | ⟨1, _⟩ => show win7_0.index t (1 : Fin 2) * 128 + 1 * (y 1).val = (k 1).val; omega

theorem blkRd7_1 (c : Dev nD) (t : Fin cfg7.N) (y : S5000x128.Idx) (k : S50000x128.Idx)
    (hk0 : (k 0).val = 5000 * t.val + (y 0).val) (hk1 : (k 1).val = (y 1).val) :
    (iblk7 V c 1 t : Vec F S5000x128 .f32) y
      = (V c (Pipeline.arrRef spec7 1) : Cert.Stages.Arr F S50000x128 .f32) k := by
  obtain ⟨-, -, a0, a1, -⟩ := idx7 t
  unfold iblk7
  rw [View.read_apply]
  show V c (Pipeline.arrRef spec7 1) _ = V c (Pipeline.arrRef spec7 1) _
  refine congrArg (V c (Pipeline.arrRef spec7 1)) (funext fun a => Fin.ext ?_)
  match a with
  | ⟨0, _⟩ => show win7_1.index t (0 : Fin 2) * 5000 + 1 * (y 0).val = (k 0).val; omega
  | ⟨1, _⟩ => show win7_1.index t (1 : Fin 2) * 128 + 1 * (y 1).val = (k 1).val; omega

theorem blkRd7_2 (c : Dev nD) (t : Fin cfg7.N) (y : S5000x1.Idx) (k : S50000x1.Idx)
    (hk0 : (k 0).val = 5000 * t.val + (y 0).val) :
    (iblk7 V c 2 t : Vec F S5000x1 .f32) y
      = (V c (Pipeline.arrRef spec7 2) : Cert.Stages.Arr F S50000x1 .f32) k := by
  obtain ⟨-, -, -, -, a0, a1, -⟩ := idx7 t
  have hy1 : (y 1).val < 1 := (y 1).isLt
  have hk1 : (k 1).val < 1 := (k 1).isLt
  unfold iblk7
  rw [View.read_apply]
  show V c (Pipeline.arrRef spec7 2) _ = V c (Pipeline.arrRef spec7 2) _
  refine congrArg (V c (Pipeline.arrRef spec7 2)) (funext fun a => Fin.ext ?_)
  match a with
  | ⟨0, _⟩ => show win7_2.index t (0 : Fin 2) * 5000 + 1 * (y 0).val = (k 0).val; omega
  | ⟨1, _⟩ => show win7_2.index t (1 : Fin 2) * 1 + 1 * (y 1).val = (k 1).val; omega

theorem blkRd7_3 (c : Dev nD) (t : Fin cfg7.N) (y : S1x128.Idx) (k : S1x128.Idx)
    (hk1 : (k 1).val = (y 1).val) :
    (iblk7 V c 3 t : Vec F S1x128 .f32) y
      = (V c (Pipeline.arrRef spec7 3) : Cert.Stages.Arr F S1x128 .f32) k := by
  obtain ⟨-, -, -, -, -, -, a0, a1, -⟩ := idx7 t
  have hy0 : (y 0).val < 1 := (y 0).isLt
  have hk0 : (k 0).val < 1 := (k 0).isLt
  unfold iblk7
  rw [View.read_apply]
  show V c (Pipeline.arrRef spec7 3) _ = V c (Pipeline.arrRef spec7 3) _
  refine congrArg (V c (Pipeline.arrRef spec7 3)) (funext fun a => Fin.ext ?_)
  match a with
  | ⟨0, _⟩ => show win7_3.index t (0 : Fin 2) * 1 + 1 * (y 0).val = (k 0).val; omega
  | ⟨1, _⟩ => show win7_3.index t (1 : Fin 2) * 128 + 1 * (y 1).val = (k 1).val; omega

theorem embOut7 (t : Fin cfg7.N) (y : S5000x128.Idx) :
    ((((cfg7.win 4).blk t).view.emb y : S50000x128.Idx) 0).val = 5000 * t.val + (y 0).val
      ∧ ((((cfg7.win 4).blk t).view.emb y : S50000x128.Idx) 1).val = (y 1).val := by
  obtain ⟨-, -, -, -, -, -, -, -, a0, a1⟩ := idx7 t
  constructor
  · show win7_4.index t (0 : Fin 2) * 5000 + 1 * (y 0).val = _; omega
  · show win7_4.index t (1 : Fin 2) * 128 + 1 * (y 1).val = _; omega

theorem wrote7 (c : Dev nD) (t : Fin cfg7.N) :
    (dat7 V c).flushed 4 t = ((cfg7.win 4).blk t).view.read (Elt F)
      (Cert.Stages.finS (V c (Pipeline.arrRef spec7 0)) (V c (Pipeline.arrRef spec7 1))
        (V c (Pipeline.arrRef spec7 2)) (V c (Pipeline.arrRef spec7 3))) := by
  show (cfg7.win 4).cut (grid7.coords t) ((dat7 V c).after 4 t) = _
  rw [after7_4]
  unfold out1_4
  rw [View.canon_unit_zero hz1]
  simp only [View.ld_unit_zero (S := S5000x128) hz1, View.ld_unit_zero (S := S5000x1) hz1,
    View.ld_unit_zero (S := S1x128) hz1]
  refine funext fun (j : S5000x128.Idx) => ?_
  show k7_pay1 (iblk7 V c 0 t) (iblk7 V c 1 t) (iblk7 V c 2 t) (iblk7 V c 3 t) j
    = Cert.Stages.finS (V c (Pipeline.arrRef spec7 0)) (V c (Pipeline.arrRef spec7 1))
        (V c (Pipeline.arrRef spec7 2)) (V c (Pipeline.arrRef spec7 3)) (((cfg7.win 4).blk t).view.emb j)
  obtain ⟨r, q, rfl⟩ : ∃ (r : Fin 5000) (q : Fin 128), j = ix2 r q := ⟨j 0, j 1, eq_ix2 j⟩
  obtain ⟨h0, h1⟩ := embOut7 t (ix2 r q)
  exact combine1 (V c (Pipeline.arrRef spec7 0)) (V c (Pipeline.arrRef spec7 1))
    (V c (Pipeline.arrRef spec7 2)) (V c (Pipeline.arrRef spec7 3))
    (iblk7 V c 0 t) (iblk7 V c 1 t) (iblk7 V c 2 t) (iblk7 V c 3 t) r q (((cfg7.win 4).blk t).view.emb (ix2 r q))
    (blkRd7_0 V c t (ix2 r q) _ h0 h1) (blkRd7_1 V c t (ix2 r q) _ h0 h1)
    (blkRd7_2 V c t (ix2 r (0 : Fin 1)) _ h0) (blkRd7_3 V c t (ix2 (0 : Fin 1) q) _ h1)

theorem memBlk7 (t : Fin cfg7.N) (i : S50000x128.Idx) :
    i ∈ ((cfg7.win 4).blk t).view.set
      ↔ ∀ a : Fin 2, win7_4.index t a * S5000x128.size a ≤ (i a).val
          ∧ (i a).val < win7_4.index t a * S5000x128.size a + S5000x128.size a := by
  show i ∈ ((View.whole (Pipeline.arrRef spec7 4)).slice (win7_4.rect t)).set ↔ _
  rw [View.set_slice_whole, Rect.mem_set_unit]
  exact Iff.rfl

theorem cover7 (i : S50000x128.Idx) :
    ∃ t : Fin cfg7.N, (cfg7.win 4).flush t = true ∧ i ∈ ((cfg7.win 4).blk t).view.set := by
  have hi0 : (i 0).val < 50000 := (i 0).isLt
  have hi1 : (i 1).val < 128 := (i 1).isLt
  have hN : cfg7.N = 10 := N_7
  let t : Fin cfg7.N := ⟨(i 0).val / 5000, by rw [hN]; omega⟩
  obtain ⟨-, -, -, -, -, -, -, -, a0, a1⟩ := idx7 t
  have ht : t.val = (i 0).val / 5000 := rfl
  refine ⟨t, flush7_4 t, ?_⟩
  rw [memBlk7]
  intro a
  match a with
  | ⟨0, _⟩ =>
    show win7_4.index t (0 : Fin 2) * 5000 ≤ (i 0).val ∧ (i 0).val < win7_4.index t (0 : Fin 2) * 5000 + 5000
    omega
  | ⟨1, _⟩ =>
    show win7_4.index t (1 : Fin 2) * 128 ≤ (i 1).val ∧ (i 1).val < win7_4.index t (1 : Fin 2) * 128 + 128
    omega

theorem final7 (c : Dev nD) :
    (dat7 V c).arrAt 4 cfg7.N
      = Cert.Stages.finS (V c (Pipeline.arrRef spec7 0)) (V c (Pipeline.arrRef spec7 1))
          (V c (Pipeline.arrRef spec7 2)) (V c (Pipeline.arrRef spec7 3)) :=
  (dat7 V c).arrAt_eq_of_cover 4 _ (fun t _ => wrote7 V c t) cover7

end Generic

variable (V : (c : Dev nD) → (b : Ref sig .tc) → Buf (Elt Ideal) ((c : Thread nD τ).loc b))

theorem fin7_final (c : Dev nD) :
    (dat7 (F := Ideal) V c).arrAt 4 cfg7.N
      = Cert.Stages.finS (F := Ideal) (V c (Pipeline.arrRef spec7 0)) (V c (Pipeline.arrRef spec7 1))
          (V c (Pipeline.arrRef spec7 2)) (V c (Pipeline.arrRef spec7 3)) :=
  final7 V c

end Cert.KernelIdeal.Hand

end
-- ==== Proof.ValPool8.lean ====
import proofs.«429942_j15479062135041_1_alg».proof.Proof.KIReg8
import proofs.«429942_j15479062135041_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

theorem lhs8_0 (i : S128x128.Idx) (q : dot_S5000x128_S5000x128_S128x128_0_0_1_1_n_n.contr.Idx) :
    (dot_S5000x128_S5000x128_S128x128_0_0_1_1_n_n.lhsIdx i q 0).val = (q ⟨0, by decide⟩).val :=
  dot_S5000x128_S5000x128_S128x128_0_0_1_1_n_n.lhsIdx_val_of_single rfl i q

theorem lhs8_1 (i : S128x128.Idx) (q : dot_S5000x128_S5000x128_S128x128_0_0_1_1_n_n.contr.Idx) :
    (dot_S5000x128_S5000x128_S128x128_0_0_1_1_n_n.lhsIdx i q 1).val = (i 0).val := by
  unfold DotDims.lhsIdx
  rw [dif_neg (show ¬(1 : Fin S5000x128.rank) ∈ dot_S5000x128_S5000x128_S128x128_0_0_1_1_n_n.lhsBatch by decide), dif_pos (show (1 : Fin S5000x128.rank) ∈ dot_S5000x128_S5000x128_S128x128_0_0_1_1_n_n.lhsNonContracting by decide)]
  rfl

theorem rhs8_0 (i : S128x128.Idx) (q : dot_S5000x128_S5000x128_S128x128_0_0_1_1_n_n.contr.Idx) :
    (dot_S5000x128_S5000x128_S128x128_0_0_1_1_n_n.rhsIdx i q 0).val = (q ⟨0, by decide⟩).val :=
  dot_S5000x128_S5000x128_S128x128_0_0_1_1_n_n.rhsIdx_val_of_single rfl i q

theorem rhs8_1 (i : S128x128.Idx) (q : dot_S5000x128_S5000x128_S128x128_0_0_1_1_n_n.contr.Idx) :
    (dot_S5000x128_S5000x128_S128x128_0_0_1_1_n_n.rhsIdx i q 1).val = (i 1).val := by
  unfold DotDims.rhsIdx
  rw [dif_neg (show ¬(1 : Fin S5000x128.rank) ∈ dot_S5000x128_S5000x128_S128x128_0_0_1_1_n_n.rhsBatch by decide), dif_pos (show (1 : Fin S5000x128.rank) ∈ dot_S5000x128_S5000x128_S128x128_0_0_1_1_n_n.rhsNonContracting by decide)]
  rfl

theorem matmul8_at (l r : FVec Ideal S5000x128 .bf16) (g q : Fin 128) :
    matmul dot_S5000x128_S5000x128_S128x128_0_0_1_1_n_n none l r (constant (F := Ideal) S128x128 .f32 0x00000000#32) (ix2 g q)
      = ∑ k : Fin 5000, l (ix2 k g) * r (ix2 k q) := by
  show FloatOps.matmul _ _ _ _ _ _ = _
  rw [Ideal.matmul_constant_zero_apply, ← Equiv.sum_comp (contrEquiv1 dot_S5000x128_S5000x128_S128x128_0_0_1_1_n_n 5000 rfl rfl).symm]
  refine Finset.sum_congr rfl fun k _ => ?_
  have hk := contrEquiv1_symm_val dot_S5000x128_S5000x128_S128x128_0_0_1_1_n_n 5000 rfl rfl k
  have el : dot_S5000x128_S5000x128_S128x128_0_0_1_1_n_n.lhsIdx (ix2 g q) ((contrEquiv1 dot_S5000x128_S5000x128_S128x128_0_0_1_1_n_n 5000 rfl rfl).symm k) = ix2 k g := funext fun a => Fin.ext (by
    match a with
    | ⟨0, _⟩ => exact (lhs8_0 _ _).trans hk
    | ⟨1, _⟩ => exact lhs8_1 _ _)
  have er : dot_S5000x128_S5000x128_S128x128_0_0_1_1_n_n.rhsIdx (ix2 g q) ((contrEquiv1 dot_S5000x128_S5000x128_S128x128_0_0_1_1_n_n 5000 rfl rfl).symm k) = ix2 k q := funext fun a => Fin.ext (by
    match a with
    | ⟨0, _⟩ => exact (rhs8_0 _ _).trans hk
    | ⟨1, _⟩ => exact rhs8_1 _ _)
  rw [el, er]

theorem k8_pay1_at (j : S128x128.Idx) : (k8_pay1 (F := Ideal)) j = 0 := by
  unfold k8_pay1
  rw [shapeCast_self]
  exact Ideal.ofBits_zero_f32

theorem k8_pay2_at (v3 : Vec Ideal S5000x128 .bf16) (v5 : Vec Ideal S5000x128 .f32) (v9 : Vec Ideal S128x128 .f32) (g q : Fin 128) :
    k8_pay2 (F := Ideal) v3 v5 v9 (ix2 g q) = v9 (ix2 g q) + ∑ k : Fin 5000, v3 (ix2 k g) * v5 (ix2 k q) := by
  unfold k8_pay2
  simp only [shapeCast_self]
  refine (addf_apply _ _ _).trans ?_
  refine congrArg (v9 (ix2 g q) + ·) ?_
  exact matmul8_at v3 (truncf .bf16 v5 bitsLt_bf16_f32) g q

variable (V : (c : Dev nD) → (b : Ref sig .tc) → Buf (Elt Ideal) ((c : Thread nD τ).loc b))

abbrev ohArr8 (c : Dev nD) : Vec Ideal S50000x128 .bf16 := V c (Pipeline.arrRef spec8 0)

abbrev hArr8 (c : Dev nD) : Vec Ideal S50000x128 .f32 := V c (Pipeline.arrRef spec8 1)

abbrev ohBlk8 (c : Dev nD) (t : Fin cfg8.N) : Vec Ideal S5000x128 .bf16 := iblk8 V c 0 t

abbrev hBlk8 (c : Dev nD) (t : Fin cfg8.N) : Vec Ideal S5000x128 .f32 := iblk8 V c 1 t

theorem idx_facts8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0 :=
  (by decide +kernel : ∀ t : Fin grid8.N, _)

theorem ohBlk8_at (c : Dev nD) (t : Fin cfg8.N) (k : Fin 5000) (g : Fin 128) (r : Fin 50000) (hr : r.val = 5000 * t.val + k.val) :
    ohBlk8 V c t (ix2 k g) = ohArr8 V c (ix2 r g) := by
  obtain ⟨e0, e1, -, -, -, -⟩ := idx_facts8 t
  show iblk8 V c 0 t (ix2 k g) = V c (Pipeline.arrRef spec8 0) (ix2 r g)
  unfold iblk8
  rw [View.read_apply]
  refine congrArg (V c (Pipeline.arrRef spec8 0)) (funext fun a => Fin.ext ?_)
  match a with
  | ⟨0, _⟩ => show win8_0.index t (0 : Fin 2) * 5000 + 1 * k.val = r.val; rw [e0, hr]; omega
  | ⟨1, _⟩ => show win8_0.index t (1 : Fin 2) * 128 + 1 * g.val = g.val; rw [e1]; omega

theorem hBlk8_at (c : Dev nD) (t : Fin cfg8.N) (k : Fin 5000) (q : Fin 128) (r : Fin 50000) (hr : r.val = 5000 * t.val + k.val) :
    hBlk8 V c t (ix2 k q) = hArr8 V c (ix2 r q) := by
  obtain ⟨-, -, e0, e1, -, -⟩ := idx_facts8 t
  show iblk8 V c 1 t (ix2 k q) = V c (Pipeline.arrRef spec8 1) (ix2 r q)
  unfold iblk8
  rw [View.read_apply]
  refine congrArg (V c (Pipeline.arrRef spec8 1)) (funext fun a => Fin.ext ?_)
  match a with
  | ⟨0, _⟩ => show win8_1.index t (0 : Fin 2) * 5000 + 1 * k.val = r.val; rw [e0, hr]; omega
  | ⟨1, _⟩ => show win8_1.index t (1 : Fin 2) * 128 + 1 * q.val = q.val; rw [e1]; omega

def blockSum8 (oh : Vec Ideal S50000x128 .bf16) (h : Vec Ideal S50000x128 .f32) (p : ℕ) (g q : Fin 128) : EReal :=
  if hp : p < 10 then
    ∑ k : Fin 5000, oh (ix2 (⟨5000 * p + k.val, by have := k.isLt; omega⟩ : Fin 50000) g) * h (ix2 (⟨5000 * p + k.val, by have := k.isLt; omega⟩ : Fin 50000) q)
  else 0

theorem acc8_at (c : Dev nD) : ∀ n : ℕ, n ≤ 10 → ∀ g q : Fin 128,
    acc8 V c n (ix2 g q) = ∑ p ∈ Finset.range n, blockSum8 (ohArr8 V c) (hArr8 V c) p g q
  | 0, _, g, q => by
    show (k8_pay1 (F := Ideal)) (ix2 g q) = _
    rw [k8_pay1_at, Finset.range_zero, Finset.sum_empty]
  | n + 1, hn, g, q => by
    have hlt : n < cfg8.N := by rw [show cfg8.N = 10 from N_8]; omega
    have hp : n < 10 := by omega
    rw [acc8, dif_pos hlt]
    refine (k8_pay2_at (ohBlk8 V c ⟨n, hlt⟩) (hBlk8 V c ⟨n, hlt⟩) (acc8 V c n) g q).trans ?_
    rw [acc8_at c n (by omega) g q, Finset.sum_range_succ]
    refine congrArg (_ + ·) ?_
    unfold blockSum8
    rw [dif_pos hp]
    refine Finset.sum_congr rfl fun k _ => ?_
    rw [ohBlk8_at V c ⟨n, hlt⟩ k g ⟨5000 * n + k.val, by have := k.isLt; omega⟩ rfl,
      hBlk8_at V c ⟨n, hlt⟩ k q ⟨5000 * n + k.val, by have := k.isLt; omega⟩ rfl]

theorem sum_blocks8 (f : Fin 50000 → EReal) :
    ∑ p : Fin 10, ∑ k : Fin 5000, f ⟨5000 * p.val + k.val, by have := p.isLt; have := k.isLt; omega⟩ = ∑ r : Fin 50000, f r := by
  rw [← Fintype.sum_prod_type']
  refine Fintype.sum_equiv (finProdFinEquiv (m := 10) (n := 5000)) _ _ fun x => congrArg f (Fin.ext ?_)
  show 5000 * x.1.val + x.2.val = x.2.val + 5000 * x.1.val
  omega

theorem acc8_last (c : Dev nD) : acc8 V c 10 = Cert.Stages.poolK (ohArr8 V c) (hArr8 V c) := by
  funext j
  obtain ⟨g, q, rfl⟩ : ∃ (g : Fin 128) (q : Fin 128), j = ix2 g q := ⟨j 0, j 1, eq_ix2 j⟩
  rw [acc8_at V c 10 (le_refl _) g q, Finset.sum_range (fun p => blockSum8 (ohArr8 V c) (hArr8 V c) p g q)]
  show _ = ∑ r : Fin 50000, ohArr8 V c (ix2 r g) * hArr8 V c (ix2 r q)
  rw [← sum_blocks8 (fun r => ohArr8 V c (ix2 r g) * hArr8 V c (ix2 r q))]
  refine Finset.sum_congr rfl fun p _ => ?_
  unfold blockSum8
  rw [dif_pos p.isLt]

theorem read_blk8_whole (t : Fin cfg8.N) (G : Vec Ideal S128x128 .f32) :
    (cfg8.win 2).cut (grid8.coords t) G = ((cfg8.win 2).blk t).view.read (Elt Ideal) G := by
  obtain ⟨-, -, -, -, e0, e1⟩ := idx_facts8 t
  funext j
  show G ((cfg8.win 2).xinj (grid8.coords t) j) = G (((cfg8.win 2).blk t).view.emb j)
  refine congrArg G (funext fun a => Fin.ext ?_)
  match a with
  | ⟨0, _⟩ => show (j 0).val = win8_2.index t (0 : Fin 2) * 128 + 1 * (j 0).val; rw [e0]; omega
  | ⟨1, _⟩ => show (j 1).val = win8_2.index t (1 : Fin 2) * 128 + 1 * (j 1).val; rw [e1]; omega

theorem flushed8_eq (c : Dev nD) (t : Fin cfg8.N) (hf : (cfg8.win 2).flush t = true) :
    (dat8 (F := Ideal) V c).flushed 2 t
      = ((cfg8.win 2).blk t).view.read (Elt Ideal) (Cert.Stages.poolK (ohArr8 V c) (hArr8 V c)) := by
  have hN : cfg8.N = 10 := N_8
  have h9 : t.val + 1 = 10 := by have h := (flush8_2 t).mp hf; have := t.isLt; omega
  show (cfg8.win 2).cut (grid8.coords t) ((dat8 V c).after 2 t) = _
  rw [after8_2, h9, acc8_last]
  exact read_blk8_whole t _

theorem mem_blk8 (t : Fin cfg8.N) (i : S128x128.Idx) :
    i ∈ ((cfg8.win 2).blk t).view.set
      ↔ ∀ a : Fin 2, win8_2.index t a * S128x128.size a ≤ (i a).val ∧ (i a).val < win8_2.index t a * S128x128.size a + S128x128.size a := by
  show i ∈ ((View.whole (Pipeline.arrRef spec8 2)).slice (win8_2.rect t)).set ↔ _
  rw [View.set_slice_whole, Rect.mem_set_unit]
  exact Iff.rfl

theorem lastCovers8 (i : S128x128.Idx) : ∃ t : Fin cfg8.N, (cfg8.win 2).flush t = true ∧ i ∈ ((cfg8.win 2).blk t).view.set := by
  refine ⟨t8_9, (flush8_2 t8_9).mpr rfl, ?_⟩
  obtain ⟨-, -, -, -, e0, e1⟩ := idx_facts8 t8_9
  rw [mem_blk8]
  intro a
  have h0 : (i 0).val < 128 := (i 0).isLt
  have h1 : (i 1).val < 128 := (i 1).isLt
  match a with
  | ⟨0, _⟩ => show win8_2.index t8_9 (0 : Fin 2) * 128 ≤ (i 0).val ∧ (i 0).val < win8_2.index t8_9 (0 : Fin 2) * 128 + 128; rw [e0]; omega
  | ⟨1, _⟩ => show win8_2.index t8_9 (1 : Fin 2) * 128 ≤ (i 1).val ∧ (i 1).val < win8_2.index t8_9 (1 : Fin 2) * 128 + 128; rw [e1]; omega

theorem pool8_final (c : Dev nD) :
    (dat8 (F := Ideal) V c).arrAt 2 cfg8.N
      = Cert.Stages.poolK (V c (Pipeline.arrRef spec8 0)) (V c (Pipeline.arrRef spec8 1)) :=
  (dat8 (F := Ideal) V c).arrAt_eq_of_cover 2 (Cert.Stages.poolK (ohArr8 V c) (hArr8 V c)) (flushed8_eq V c) lastCovers8

end Cert.KernelIdeal.Hand

end
-- ==== Proof.KHost.lean ====
import proofs.«429942_j15479062135041_1_alg».proof.Proof.KIFold
import proofs.«429942_j15479062135041_1_alg».proof.Proof.ValLin0
import proofs.«429942_j15479062135041_1_alg».proof.Proof.ValLin2
import proofs.«429942_j15479062135041_1_alg».proof.Proof.ValLin4
import proofs.«429942_j15479062135041_1_alg».proof.Proof.ValLin6
import proofs.«429942_j15479062135041_1_alg».proof.Proof.ValFin1
import proofs.«429942_j15479062135041_1_alg».proof.Proof.ValFin3
import proofs.«429942_j15479062135041_1_alg».proof.Proof.ValFin5
import proofs.«429942_j15479062135041_1_alg».proof.Proof.ValFin7
import proofs.«429942_j15479062135041_1_alg».proof.Proof.ValPool8
import proofs.«429942_j15479062135041_1_alg».proof.Proof.Stages
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Cert.Stages (Arr srcI dstI wrapI colI dinvS coefS aggS linS layerR coefColK d2ColK bRowK finS layerK poolR onehotS tailS poolK)

section Stretches

variable {F : FTy → Type} [FloatOps F]
variable (V : Valuation τ sig (Elt F))

theorem ops0_src : StableHlo.after hostOps0 V (Proc.devRef .tc main_v1) = srcI (F := F) (V main_arg1) := by
  after_results_simp
  rfl
theorem ops0_dst : StableHlo.after hostOps0 V (Proc.devRef .tc main_v3) = dstI (F := F) (V main_arg1) := by
  after_results_simp
  rfl
theorem ops0_d2 : StableHlo.after hostOps0 V (Proc.devRef .tc main_v12) = d2ColK (F := F) (V main_arg1) := by
  after_results_simp
  rfl
theorem ops0_coef : StableHlo.after hostOps0 V (Proc.devRef .tc main_v28) = coefColK (F := F) (V main_arg1) := by
  after_results_simp
  rfl

def aggV (s d : Arr F S1600000 .i32) (cE1 : Arr F S1600000x1 .f32) (h : Arr F S50000x128 .f32) : Arr F S50000x128 .f32 :=
  Host.scatterAdd scatter_S50000x128_S1600000x1_S1600000x128_1_0_0_1
    (broadcastInDim S50000x128 ![] bcast_S_S50000x128 (constant S_ .f32 0x00000000#32)) (colI d)
    (mulf (Host.gather gather_S50000x128_S1600000x1_S1600000x128_1_0_n_n_0_1_1128 h (colI (wrapI s)))
      (broadcastInDim S1600000x128 ![0, 1] bcast_S1600000x1_S1600000x128_0_1 cE1))

theorem aggV_edges (x1 : Arr F S2x1600000 .i32) (cE1 : Arr F S1600000x1 .f32) (h : Arr F S50000x128 .f32) :
    aggV (srcI x1) (dstI x1) cE1 h = aggS x1 cE1 h := rfl

theorem ops1_agg :
    StableHlo.after hostOps1 V (Proc.devRef .tc main_v41) = aggV (V main_v1) (V main_v3) (V main_v28) (V main_v29) := by
  after_results_simp
  rfl
theorem ops1_bias : StableHlo.after hostOps1 V (Proc.devRef .tc main_v42) = bRowK (F := F) (V main_arg4) := by
  after_results_simp
  rfl

theorem ops3_agg :
    StableHlo.after hostOps3 V (Proc.devRef .tc main_v56) = aggV (V main_v1) (V main_v3) (V main_v28) (V main_v44) := by
  after_results_simp
  rfl
theorem ops3_bias : StableHlo.after hostOps3 V (Proc.devRef .tc main_v57) = bRowK (F := F) (V main_arg6) := by
  after_results_simp
  rfl

theorem ops5_agg :
    StableHlo.after hostOps5 V (Proc.devRef .tc main_v71) = aggV (V main_v1) (V main_v3) (V main_v28) (V main_v59) := by
  after_results_simp
  rfl
theorem ops5_bias : StableHlo.after hostOps5 V (Proc.devRef .tc main_v72) = bRowK (F := F) (V main_arg6) := by
  after_results_simp
  rfl

theorem ops7_agg :
    StableHlo.after hostOps7 V (Proc.devRef .tc main_v86) = aggV (V main_v1) (V main_v3) (V main_v28) (V main_v74) := by
  after_results_simp
  rfl
theorem ops7_bias : StableHlo.after hostOps7 V (Proc.devRef .tc main_v87) = bRowK (F := F) (V main_arg6) := by
  after_results_simp
  rfl

theorem ops8_onehot : StableHlo.after hostOps8 V (Proc.devRef .tc main_v95) = onehotS (F := F) (V main_arg2) := by
  after_results_simp
  rfl

theorem ops9_counts :
    StableHlo.after hostOps9 V (Proc.devRef .tc main_v100)
      = Host.scatterAdd scatter_S128_S50000x1_S50000_n_0_0_1
          (broadcastInDim S128 ![] bcast_S_S128 (constant (F := F) S_ .f32 0x00000000#32))
          (broadcastInDim S50000x1 ![0] bcast_S50000_S50000x1_0 (V main_arg2))
          (broadcastInDim S50000 ![] bcast_S_S50000 (constant (F := F) S_ .f32 0x3F800000#32)) := by
  after_results_simp
theorem ops9_one : StableHlo.after hostOps9 V (Proc.devRef .tc main_cst_19) = constant (F := F) S_ .f32 0x3F800000#32 := by
  after_results_simp

theorem ops9_1_clip :
    StableHlo.after hostOps9_1 V (Proc.devRef .tc main_v101)
      = maximumf (broadcastInDim S128 ![] bcast_S_S128 (V main_cst_19)) (V main_v100) := by
  after_results_simp
  rfl
theorem ops9_2_out :
    StableHlo.after hostOps9_2 V (Proc.devRef .tc main_v108)
      = addf
          (Host.dotGeneral dot_S128x128_S128x1_S128x1_1_0_0_1_n_n none
            (Host.divf (V main_v96)
              (broadcastInDim S128x128 ![0, 1] bcast_S128x1_S128x128_0_1 (broadcastInDim S128x1 ![0] bcast_S128_S128x1_0 (V main_v101))))
            (V main_arg7))
          (broadcastInDim S128x1 ![0, 1] bcast_S1x1_S128x1_0_1 (broadcastInDim S1x1 ![1] bcast_S1_S1x1_1 (V main_arg8))) := by
  after_results_simp

end Stretches

section Fold

variable {F : FTy → Type} [FloatOps F]
variable (m : (ℓ : Loc nD τ sig) → Buf (Elt F) ℓ)

theorem U2_of (c : Dev nD) {r : Ref sig .tc} (h : r ∉ ([main_v29] : List (Ref sig .tc))) : U2 m c r = U1 m c r :=
  Function.update_of_ne (StableHlo.devRef_ne_of_ne (List.ne_of_not_mem_cons h)) _ _
theorem U3_of (c : Dev nD) {r : Ref sig .tc} (h : r ∉ hostOps1_W) : U3 m c r = U2 m c r :=
  StableHlo.after_of_writes_sub hostOps1 _ hostOps1_writes h
theorem U4_of (c : Dev nD) {r : Ref sig .tc} (h : r ∉ ([main_v43] : List (Ref sig .tc))) : U4 m c r = U3 m c r :=
  Function.update_of_ne (StableHlo.devRef_ne_of_ne (List.ne_of_not_mem_cons h)) _ _
theorem U5_of (c : Dev nD) {r : Ref sig .tc} (h : r ∉ ([main_v44] : List (Ref sig .tc))) : U5 m c r = U4 m c r :=
  Function.update_of_ne (StableHlo.devRef_ne_of_ne (List.ne_of_not_mem_cons h)) _ _
theorem U6_of (c : Dev nD) {r : Ref sig .tc} (h : r ∉ hostOps3_W) : U6 m c r = U5 m c r :=
  StableHlo.after_of_writes_sub hostOps3 _ hostOps3_writes h
theorem U7_of (c : Dev nD) {r : Ref sig .tc} (h : r ∉ ([main_v58] : List (Ref sig .tc))) : U7 m c r = U6 m c r :=
  Function.update_of_ne (StableHlo.devRef_ne_of_ne (List.ne_of_not_mem_cons h)) _ _
theorem U8_of (c : Dev nD) {r : Ref sig .tc} (h : r ∉ ([main_v59] : List (Ref sig .tc))) : U8 m c r = U7 m c r :=
  Function.update_of_ne (StableHlo.devRef_ne_of_ne (List.ne_of_not_mem_cons h)) _ _
theorem U9_of (c : Dev nD) {r : Ref sig .tc} (h : r ∉ hostOps5_W) : U9 m c r = U8 m c r :=
  StableHlo.after_of_writes_sub hostOps5 _ hostOps5_writes h
theorem U10_of (c : Dev nD) {r : Ref sig .tc} (h : r ∉ ([main_v73] : List (Ref sig .tc))) : U10 m c r = U9 m c r :=
  Function.update_of_ne (StableHlo.devRef_ne_of_ne (List.ne_of_not_mem_cons h)) _ _
theorem U11_of (c : Dev nD) {r : Ref sig .tc} (h : r ∉ ([main_v74] : List (Ref sig .tc))) : U11 m c r = U10 m c r :=
  Function.update_of_ne (StableHlo.devRef_ne_of_ne (List.ne_of_not_mem_cons h)) _ _
theorem U12_of (c : Dev nD) {r : Ref sig .tc} (h : r ∉ hostOps7_W) : U12 m c r = U11 m c r :=
  StableHlo.after_of_writes_sub hostOps7 _ hostOps7_writes h
theorem U13_of (c : Dev nD) {r : Ref sig .tc} (h : r ∉ ([main_v88] : List (Ref sig .tc))) : U13 m c r = U12 m c r :=
  Function.update_of_ne (StableHlo.devRef_ne_of_ne (List.ne_of_not_mem_cons h)) _ _
theorem U14_of (c : Dev nD) {r : Ref sig .tc} (h : r ∉ hostOps8_W) : U14 m c r = U13 m c r :=
  StableHlo.after_of_writes_sub hostOps8 _ hostOps8_writes h
theorem U15_of (c : Dev nD) {r : Ref sig .tc} (h : r ∉ ([main_v96] : List (Ref sig .tc))) : U15 m c r = U14 m c r :=
  Function.update_of_ne (StableHlo.devRef_ne_of_ne (List.ne_of_not_mem_cons h)) _ _
theorem U16_of (c : Dev nD) {r : Ref sig .tc} (h : r ∉ hostOps9_W) : U16 m c r = U15 m c r :=
  StableHlo.after_of_writes_sub hostOps9 _ hostOps9_writes h
theorem U17_of (c : Dev nD) {r : Ref sig .tc} (h : r ∉ hostOps9_1_W) : U17 m c r = U16 m c r :=
  StableHlo.after_of_writes_sub hostOps9_1 _ hostOps9_1_writes h

abbrev W2 : List (Ref sig .tc) := [main_v29]
abbrev W3 : List (Ref sig .tc) := W2 ++ hostOps1_W
abbrev W4 : List (Ref sig .tc) := W3 ++ [main_v43]
abbrev W5 : List (Ref sig .tc) := W4 ++ [main_v44]
abbrev W6 : List (Ref sig .tc) := W5 ++ hostOps3_W
abbrev W7 : List (Ref sig .tc) := W6 ++ [main_v58]
abbrev W8 : List (Ref sig .tc) := W7 ++ [main_v59]
abbrev W9 : List (Ref sig .tc) := W8 ++ hostOps5_W
abbrev W10 : List (Ref sig .tc) := W9 ++ [main_v73]
abbrev W11 : List (Ref sig .tc) := W10 ++ [main_v74]
abbrev W12 : List (Ref sig .tc) := W11 ++ hostOps7_W
abbrev W13 : List (Ref sig .tc) := W12 ++ [main_v88]
abbrev W14 : List (Ref sig .tc) := W13 ++ hostOps8_W
abbrev W15 : List (Ref sig .tc) := W14 ++ [main_v96]
abbrev W16 : List (Ref sig .tc) := W15 ++ hostOps9_W
abbrev W17 : List (Ref sig .tc) := W16 ++ hostOps9_1_W

theorem kept2 (c : Dev nD) {r : Ref sig .tc} (h : r ∉ W2) : U2 m c r = U1 m c r := U2_of m c h
theorem kept3 (c : Dev nD) {r : Ref sig .tc} (h : r ∉ W3) : U3 m c r = U1 m c r :=
  (U3_of m c fun h' => h (List.mem_append_right _ h')).trans (kept2 m c fun h' => h (List.mem_append_left _ h'))
theorem kept4 (c : Dev nD) {r : Ref sig .tc} (h : r ∉ W4) : U4 m c r = U1 m c r :=
  (U4_of m c fun h' => h (List.mem_append_right _ h')).trans (kept3 m c fun h' => h (List.mem_append_left _ h'))
theorem kept5 (c : Dev nD) {r : Ref sig .tc} (h : r ∉ W5) : U5 m c r = U1 m c r :=
  (U5_of m c fun h' => h (List.mem_append_right _ h')).trans (kept4 m c fun h' => h (List.mem_append_left _ h'))
theorem kept6 (c : Dev nD) {r : Ref sig .tc} (h : r ∉ W6) : U6 m c r = U1 m c r :=
  (U6_of m c fun h' => h (List.mem_append_right _ h')).trans (kept5 m c fun h' => h (List.mem_append_left _ h'))
theorem kept7 (c : Dev nD) {r : Ref sig .tc} (h : r ∉ W7) : U7 m c r = U1 m c r :=
  (U7_of m c fun h' => h (List.mem_append_right _ h')).trans (kept6 m c fun h' => h (List.mem_append_left _ h'))
theorem kept8 (c : Dev nD) {r : Ref sig .tc} (h : r ∉ W8) : U8 m c r = U1 m c r :=
  (U8_of m c fun h' => h (List.mem_append_right _ h')).trans (kept7 m c fun h' => h (List.mem_append_left _ h'))
theorem kept9 (c : Dev nD) {r : Ref sig .tc} (h : r ∉ W9) : U9 m c r = U1 m c r :=
  (U9_of m c fun h' => h (List.mem_append_right _ h')).trans (kept8 m c fun h' => h (List.mem_append_left _ h'))
theorem kept10 (c : Dev nD) {r : Ref sig .tc} (h : r ∉ W10) : U10 m c r = U1 m c r :=
  (U10_of m c fun h' => h (List.mem_append_right _ h')).trans (kept9 m c fun h' => h (List.mem_append_left _ h'))
theorem kept11 (c : Dev nD) {r : Ref sig .tc} (h : r ∉ W11) : U11 m c r = U1 m c r :=
  (U11_of m c fun h' => h (List.mem_append_right _ h')).trans (kept10 m c fun h' => h (List.mem_append_left _ h'))
theorem kept12 (c : Dev nD) {r : Ref sig .tc} (h : r ∉ W12) : U12 m c r = U1 m c r :=
  (U12_of m c fun h' => h (List.mem_append_right _ h')).trans (kept11 m c fun h' => h (List.mem_append_left _ h'))
theorem kept13 (c : Dev nD) {r : Ref sig .tc} (h : r ∉ W13) : U13 m c r = U1 m c r :=
  (U13_of m c fun h' => h (List.mem_append_right _ h')).trans (kept12 m c fun h' => h (List.mem_append_left _ h'))
theorem kept14 (c : Dev nD) {r : Ref sig .tc} (h : r ∉ W14) : U14 m c r = U1 m c r :=
  (U14_of m c fun h' => h (List.mem_append_right _ h')).trans (kept13 m c fun h' => h (List.mem_append_left _ h'))
theorem kept15 (c : Dev nD) {r : Ref sig .tc} (h : r ∉ W15) : U15 m c r = U1 m c r :=
  (U15_of m c fun h' => h (List.mem_append_right _ h')).trans (kept14 m c fun h' => h (List.mem_append_left _ h'))
theorem kept16 (c : Dev nD) {r : Ref sig .tc} (h : r ∉ W16) : U16 m c r = U1 m c r :=
  (U16_of m c fun h' => h (List.mem_append_right _ h')).trans (kept15 m c fun h' => h (List.mem_append_left _ h'))
theorem kept17 (c : Dev nD) {r : Ref sig .tc} (h : r ∉ W17) : U17 m c r = U1 m c r :=
  (U17_of m c fun h' => h (List.mem_append_right _ h')).trans (kept16 m c fun h' => h (List.mem_append_left _ h'))

theorem U1_arg (c : Dev nD) {r : Ref sig .tc} (h : r ∉ hostOps0_W) : U1 m c r = m ((c : Thread nD τ).loc r) :=
  V1_of m c r h

theorem U2_out (c : Dev nD) : U2 m c main_v29 = o2 m c := Function.update_self _ _ _
theorem U4_out (c : Dev nD) : U4 m c main_v43 = o4 m c := Function.update_self _ _ _
theorem U5_out (c : Dev nD) : U5 m c main_v44 = o5 m c := Function.update_self _ _ _
theorem U7_out (c : Dev nD) : U7 m c main_v58 = o7 m c := Function.update_self _ _ _
theorem U8_out (c : Dev nD) : U8 m c main_v59 = o8 m c := Function.update_self _ _ _
theorem U10_out (c : Dev nD) : U10 m c main_v73 = o10 m c := Function.update_self _ _ _
theorem U11_out (c : Dev nD) : U11 m c main_v74 = o11 m c := Function.update_self _ _ _
theorem U13_out (c : Dev nD) : U13 m c main_v88 = o13 m c := Function.update_self _ _ _
theorem U15_out (c : Dev nD) : U15 m c main_v96 = o15 m c := Function.update_self _ _ _

theorem src1 (c : Dev nD) : U1 m c main_v1 = srcI (F := F) (m ((c : Thread nD τ).loc main_arg1)) := ops0_src (V0 m c)
theorem dst1 (c : Dev nD) : U1 m c main_v3 = dstI (F := F) (m ((c : Thread nD τ).loc main_arg1)) := ops0_dst (V0 m c)
theorem d2_1st (c : Dev nD) : U1 m c main_v12 = d2ColK (F := F) (m ((c : Thread nD τ).loc main_arg1)) := ops0_d2 (V0 m c)
theorem coef1 (c : Dev nD) : U1 m c main_v28 = coefColK (F := F) (m ((c : Thread nD τ).loc main_arg1)) := ops0_coef (V0 m c)

theorem agg1 (c : Dev nD) :
    U3 m c main_v41 = aggS (F := F) (m ((c : Thread nD τ).loc main_arg1)) (coefColK (F := F) (m ((c : Thread nD τ).loc main_arg1))) (o2 m c) := by
  rw [show U3 m c main_v41 = _ from ops1_agg (U2 m c), kept2 m c (r := main_v1) (by decide),
    kept2 m c (r := main_v3) (by decide), kept2 m c (r := main_v28) (by decide), src1, dst1, coef1, U2_out, aggV_edges]
theorem bias1 (c : Dev nD) : U3 m c main_v42 = bRowK (F := F) (m ((c : Thread nD τ).loc main_arg4)) := by
  rw [show U3 m c main_v42 = _ from ops1_bias (U2 m c), kept2 m c (r := main_arg4) (by decide),
    U1_arg m c (r := main_arg4) (by decide)]
theorem lin1 (c : Dev nD) : U3 m c main_v29 = o2 m c := (U3_of m c (by decide)).trans (U2_out m c)
theorem d2_1 (c : Dev nD) : U3 m c main_v12 = d2ColK (F := F) (m ((c : Thread nD τ).loc main_arg1)) := (kept3 m c (by decide)).trans (d2_1st m c)

theorem agg3 (c : Dev nD) :
    U6 m c main_v56 = aggS (F := F) (m ((c : Thread nD τ).loc main_arg1)) (coefColK (F := F) (m ((c : Thread nD τ).loc main_arg1))) (o5 m c) := by
  rw [show U6 m c main_v56 = _ from ops3_agg (U5 m c), kept5 m c (r := main_v1) (by decide),
    kept5 m c (r := main_v3) (by decide), kept5 m c (r := main_v28) (by decide), src1, dst1, coef1, U5_out, aggV_edges]
theorem bias3 (c : Dev nD) : U6 m c main_v57 = bRowK (F := F) (m ((c : Thread nD τ).loc main_arg6)) := by
  rw [show U6 m c main_v57 = _ from ops3_bias (U5 m c), kept5 m c (r := main_arg6) (by decide),
    U1_arg m c (r := main_arg6) (by decide)]
theorem lin3 (c : Dev nD) : U6 m c main_v44 = o5 m c := (U6_of m c (by decide)).trans (U5_out m c)
theorem d2_3 (c : Dev nD) : U6 m c main_v12 = d2ColK (F := F) (m ((c : Thread nD τ).loc main_arg1)) := (kept6 m c (by decide)).trans (d2_1st m c)

theorem agg5 (c : Dev nD) :
    U9 m c main_v71 = aggS (F := F) (m ((c : Thread nD τ).loc main_arg1)) (coefColK (F := F) (m ((c : Thread nD τ).loc main_arg1))) (o8 m c) := by
  rw [show U9 m c main_v71 = _ from ops5_agg (U8 m c), kept8 m c (r := main_v1) (by decide),
    kept8 m c (r := main_v3) (by decide), kept8 m c (r := main_v28) (by decide), src1, dst1, coef1, U8_out, aggV_edges]
theorem bias5 (c : Dev nD) : U9 m c main_v72 = bRowK (F := F) (m ((c : Thread nD τ).loc main_arg6)) := by
  rw [show U9 m c main_v72 = _ from ops5_bias (U8 m c), kept8 m c (r := main_arg6) (by decide),
    U1_arg m c (r := main_arg6) (by decide)]
theorem lin5 (c : Dev nD) : U9 m c main_v59 = o8 m c := (U9_of m c (by decide)).trans (U8_out m c)
theorem d2_5 (c : Dev nD) : U9 m c main_v12 = d2ColK (F := F) (m ((c : Thread nD τ).loc main_arg1)) := (kept9 m c (by decide)).trans (d2_1st m c)

theorem agg7 (c : Dev nD) :
    U12 m c main_v86 = aggS (F := F) (m ((c : Thread nD τ).loc main_arg1)) (coefColK (F := F) (m ((c : Thread nD τ).loc main_arg1))) (o11 m c) := by
  rw [show U12 m c main_v86 = _ from ops7_agg (U11 m c), kept11 m c (r := main_v1) (by decide),
    kept11 m c (r := main_v3) (by decide), kept11 m c (r := main_v28) (by decide), src1, dst1, coef1, U11_out, aggV_edges]
theorem bias7 (c : Dev nD) : U12 m c main_v87 = bRowK (F := F) (m ((c : Thread nD τ).loc main_arg6)) := by
  rw [show U12 m c main_v87 = _ from ops7_bias (U11 m c), kept11 m c (r := main_arg6) (by decide),
    U1_arg m c (r := main_arg6) (by decide)]
theorem lin7 (c : Dev nD) : U12 m c main_v74 = o11 m c := (U12_of m c (by decide)).trans (U11_out m c)
theorem d2_7 (c : Dev nD) : U12 m c main_v12 = d2ColK (F := F) (m ((c : Thread nD τ).loc main_arg1)) := (kept12 m c (by decide)).trans (d2_1st m c)

theorem onehot14 (c : Dev nD) : U14 m c main_v95 = onehotS (F := F) (m ((c : Thread nD τ).loc main_arg2)) := by
  rw [show U14 m c main_v95 = _ from ops8_onehot (U13 m c), kept13 m c (r := main_arg2) (by decide),
    U1_arg m c (r := main_arg2) (by decide)]
theorem rows14 (c : Dev nD) : U14 m c main_v88 = o13 m c := (U14_of m c (by decide)).trans (U13_out m c)

theorem tail18 (c : Dev nD) :
    U18 m c main_v108 = tailS (F := F) (o15 m c) (m ((c : Thread nD τ).loc main_arg2)) (m ((c : Thread nD τ).loc main_arg7)) (m ((c : Thread nD τ).loc main_arg8)) := by
  rw [show U18 m c main_v108 = _ from ops9_2_out (U17 m c), show U17 m c main_v101 = _ from ops9_1_clip (U16 m c),
    show U16 m c main_cst_19 = _ from ops9_one (U15 m c), show U16 m c main_v100 = _ from ops9_counts (U15 m c),
    U17_of m c (r := main_v96) (by decide), U16_of m c (r := main_v96) (by decide), U15_out,
    kept15 m c (r := main_arg2) (by decide), U1_arg m c (r := main_arg2) (by decide),
    kept17 m c (r := main_arg7) (by decide), U1_arg m c (r := main_arg7) (by decide),
    kept17 m c (r := main_arg8) (by decide), U1_arg m c (r := main_arg8) (by decide)]
  rfl

end Fold

variable (m : (ℓ : Loc nD τ sig) → Buf (Elt Ideal) ℓ)

theorem o2_eq (c : Dev nD) : o2 m c = linS (F := Ideal) (m ((c : Thread nD τ).loc main_arg0)) (m ((c : Thread nD τ).loc main_arg3)) := by
  unfold o2
  refine (lin0_final (atTc (U1 m)) c).trans ?_
  show linS (F := Ideal) (U1 m c main_arg0) (U1 m c main_arg3) = _
  rw [U1_arg m c (r := main_arg0) (by decide), U1_arg m c (r := main_arg3) (by decide)]

theorem o4_eq (c : Dev nD) : o4 m c = layerK (F := Ideal) (m ((c : Thread nD τ).loc main_arg1)) (m ((c : Thread nD τ).loc main_arg0)) (m ((c : Thread nD τ).loc main_arg3)) (m ((c : Thread nD τ).loc main_arg4)) := by
  unfold o4
  refine (fin1_final (atTc (U3 m)) c).trans ?_
  show finS (F := Ideal) (U3 m c main_v41) (U3 m c main_v29) (U3 m c main_v12) (U3 m c main_v42) = _
  rw [agg1, lin1, d2_1, bias1, o2_eq]
  rfl

theorem o5_eq (c : Dev nD) : o5 m c = linS (F := Ideal) (o4 m c) (m ((c : Thread nD τ).loc main_arg5)) := by
  unfold o5
  refine (lin2_final (atTc (U4 m)) c).trans ?_
  show linS (F := Ideal) (U4 m c main_v43) (U4 m c main_arg5) = _
  rw [U4_out, kept4 m c (r := main_arg5) (by decide), U1_arg m c (r := main_arg5) (by decide)]

theorem o7_eq (c : Dev nD) : o7 m c = layerK (F := Ideal) (m ((c : Thread nD τ).loc main_arg1)) (o4 m c) (m ((c : Thread nD τ).loc main_arg5)) (m ((c : Thread nD τ).loc main_arg6)) := by
  unfold o7
  refine (fin3_final (atTc (U6 m)) c).trans ?_
  show finS (F := Ideal) (U6 m c main_v56) (U6 m c main_v44) (U6 m c main_v12) (U6 m c main_v57) = _
  rw [agg3, lin3, d2_3, bias3, o5_eq]
  rfl

theorem o8_eq (c : Dev nD) : o8 m c = linS (F := Ideal) (o7 m c) (m ((c : Thread nD τ).loc main_arg5)) := by
  unfold o8
  refine (lin4_final (atTc (U7 m)) c).trans ?_
  show linS (F := Ideal) (U7 m c main_v58) (U7 m c main_arg5) = _
  rw [U7_out, kept7 m c (r := main_arg5) (by decide), U1_arg m c (r := main_arg5) (by decide)]

theorem o10_eq (c : Dev nD) : o10 m c = layerK (F := Ideal) (m ((c : Thread nD τ).loc main_arg1)) (o7 m c) (m ((c : Thread nD τ).loc main_arg5)) (m ((c : Thread nD τ).loc main_arg6)) := by
  unfold o10
  refine (fin5_final (atTc (U9 m)) c).trans ?_
  show finS (F := Ideal) (U9 m c main_v71) (U9 m c main_v59) (U9 m c main_v12) (U9 m c main_v72) = _
  rw [agg5, lin5, d2_5, bias5, o8_eq]
  rfl

theorem o11_eq (c : Dev nD) : o11 m c = linS (F := Ideal) (o10 m c) (m ((c : Thread nD τ).loc main_arg5)) := by
  unfold o11
  refine (lin6_final (atTc (U10 m)) c).trans ?_
  show linS (F := Ideal) (U10 m c main_v73) (U10 m c main_arg5) = _
  rw [U10_out, kept10 m c (r := main_arg5) (by decide), U1_arg m c (r := main_arg5) (by decide)]

theorem o13_eq (c : Dev nD) : o13 m c = layerK (F := Ideal) (m ((c : Thread nD τ).loc main_arg1)) (o10 m c) (m ((c : Thread nD τ).loc main_arg5)) (m ((c : Thread nD τ).loc main_arg6)) := by
  unfold o13
  refine (fin7_final (atTc (U12 m)) c).trans ?_
  show finS (F := Ideal) (U12 m c main_v86) (U12 m c main_v74) (U12 m c main_v12) (U12 m c main_v87) = _
  rw [agg7, lin7, d2_7, bias7, o11_eq]
  rfl

theorem o15_eq (c : Dev nD) : o15 m c = poolK (onehotS (F := Ideal) (m ((c : Thread nD τ).loc main_arg2))) (o13 m c) := by
  unfold o15
  refine (pool8_final (atTc (U14 m)) c).trans ?_
  show poolK (U14 m c main_v95) (U14 m c main_v88) = _
  rw [onehot14, rows14]

theorem kernel_net (c : Dev nD) :
    U18 m c main_v108
      = tailS (F := Ideal)
          (poolK (onehotS (F := Ideal) (m ((c : Thread nD τ).loc main_arg2)))
            (layerK (F := Ideal) (m ((c : Thread nD τ).loc main_arg1))
              (layerK (F := Ideal) (m ((c : Thread nD τ).loc main_arg1))
                (layerK (F := Ideal) (m ((c : Thread nD τ).loc main_arg1))
                  (layerK (F := Ideal) (m ((c : Thread nD τ).loc main_arg1)) (m ((c : Thread nD τ).loc main_arg0))
                    (m ((c : Thread nD τ).loc main_arg3)) (m ((c : Thread nD τ).loc main_arg4)))
                  (m ((c : Thread nD τ).loc main_arg5)) (m ((c : Thread nD τ).loc main_arg6)))
                (m ((c : Thread nD τ).loc main_arg5)) (m ((c : Thread nD τ).loc main_arg6)))
              (m ((c : Thread nD τ).loc main_arg5)) (m ((c : Thread nD τ).loc main_arg6))))
          (m ((c : Thread nD τ).loc main_arg2)) (m ((c : Thread nD τ).loc main_arg7)) (m ((c : Thread nD τ).loc main_arg8)) := by
  rw [tail18, o15_eq, o13_eq, o10_eq, o7_eq, o4_eq]

end Cert.KernelIdeal.Hand

end
-- ==== Proof.RefNet.lean ====
import proofs.«429942_j15479062135041_1_alg».proof.Proof.Stages
import proofs.«429942_j15479062135041_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Stages

open Cert.ReferenceIdeal Cert.ReferenceIdeal.Gen Cert.ReferenceIdeal.Read Idealize.ShloMosaic

variable {F : FTy → Type} [FloatOps F]

namespace RefNet

theorem v1_eq (x1 : Arr F S2x1600000 .i32) : val_main_v1 (F := F) x1 = srcI x1 := rfl

theorem v3_eq (x1 : Arr F S2x1600000 .i32) : val_main_v3 (F := F) x1 = dstI x1 := rfl

theorem v6_eq (x1 : Arr F S2x1600000 .i32) : val_main_v6 (F := F) x1 = colI (dstI x1) := rfl

theorem v17_eq (x1 : Arr F S2x1600000 .i32) : val_main_v17 (F := F) x1 = colI (wrapI (srcI x1)) := rfl

theorem v24_eq (x1 : Arr F S2x1600000 .i32) : val_main_v24 (F := F) x1 = colI (wrapI (dstI x1)) := rfl

theorem v32_eq (x1 : Arr F S2x1600000 .i32) : val_main_v32 (F := F) x1 = colI (wrapI (srcI x1)) := rfl

theorem v38_eq (x1 : Arr F S2x1600000 .i32) : val_main_v38 (F := F) x1 = colI (dstI x1) := rfl

theorem v55_eq (x1 : Arr F S2x1600000 .i32) : val_main_v55 (F := F) x1 = colI (wrapI (srcI x1)) := rfl
theorem v62_eq (x1 : Arr F S2x1600000 .i32) : val_main_v62 (F := F) x1 = colI (wrapI (dstI x1)) := rfl
theorem v70_eq (x1 : Arr F S2x1600000 .i32) : val_main_v70 (F := F) x1 = colI (wrapI (srcI x1)) := rfl
theorem v76_eq (x1 : Arr F S2x1600000 .i32) : val_main_v76 (F := F) x1 = colI (dstI x1) := rfl

theorem v93_eq (x1 : Arr F S2x1600000 .i32) : val_main_v93 (F := F) x1 = colI (wrapI (srcI x1)) := rfl
theorem v100_eq (x1 : Arr F S2x1600000 .i32) : val_main_v100 (F := F) x1 = colI (wrapI (dstI x1)) := rfl
theorem v108_eq (x1 : Arr F S2x1600000 .i32) : val_main_v108 (F := F) x1 = colI (wrapI (srcI x1)) := rfl
theorem v114_eq (x1 : Arr F S2x1600000 .i32) : val_main_v114 (F := F) x1 = colI (dstI x1) := rfl

theorem v131_eq (x1 : Arr F S2x1600000 .i32) : val_main_v131 (F := F) x1 = colI (wrapI (srcI x1)) := rfl
theorem v138_eq (x1 : Arr F S2x1600000 .i32) : val_main_v138 (F := F) x1 = colI (wrapI (dstI x1)) := rfl
theorem v146_eq (x1 : Arr F S2x1600000 .i32) : val_main_v146 (F := F) x1 = colI (wrapI (srcI x1)) := rfl
theorem v152_eq (x1 : Arr F S2x1600000 .i32) : val_main_v152 (F := F) x1 = colI (dstI x1) := rfl

theorem v10_eq (x1 : Arr F S2x1600000 .i32) : val_main_v10 (F := F) x1 = dinvS x1 := by
  unfold val_main_v10 val_main_v9 val_main_v7 val_main_v8 val_main_v5 val_main_v4 val_main_cst val_main_cst_0 val_main_cst_1 dinvS
  rw [v6_eq]

theorem v26_eq (x1 : Arr F S2x1600000 .i32) : val_main_v26 (F := F) x1 = coefS x1 := by
  unfold val_main_v26 val_main_v18 val_main_v25 coefS
  rw [v10_eq, v17_eq, v24_eq]

theorem v64_eq (x1 : Arr F S2x1600000 .i32) : val_main_v64 (F := F) x1 = coefS x1 := by
  unfold val_main_v64 val_main_v56 val_main_v63 coefS
  rw [v10_eq, v55_eq, v62_eq]

theorem v102_eq (x1 : Arr F S2x1600000 .i32) : val_main_v102 (F := F) x1 = coefS x1 := by
  unfold val_main_v102 val_main_v94 val_main_v101 coefS
  rw [v10_eq, v93_eq, v100_eq]

theorem v140_eq (x1 : Arr F S2x1600000 .i32) : val_main_v140 (F := F) x1 = coefS x1 := by
  unfold val_main_v140 val_main_v132 val_main_v139 coefS
  rw [v10_eq, v131_eq, v138_eq]

def d2B (x1 : Arr F S2x1600000 .i32) : Arr F S50000x128 .f32 :=
  broadcastInDim S50000x128 ![0, 1] bcast_S50000x1_S50000x128_0_1
    (broadcastInDim S50000x1 ![0] bcast_S50000_S50000x1_0 (mulf (dinvS x1) (dinvS x1)))

theorem v42_eq (x1 : Arr F S2x1600000 .i32) : val_main_v42 (F := F) x1 = d2B x1 := by
  unfold val_main_v42 val_main_v41 val_main_v40 d2B
  rw [v10_eq]

theorem v80_eq (x1 : Arr F S2x1600000 .i32) : val_main_v80 (F := F) x1 = d2B x1 := by
  unfold val_main_v80 val_main_v79 val_main_v78 d2B
  rw [v10_eq]

theorem v118_eq (x1 : Arr F S2x1600000 .i32) : val_main_v118 (F := F) x1 = d2B x1 := by
  unfold val_main_v118 val_main_v117 val_main_v116 d2B
  rw [v10_eq]

theorem v156_eq (x1 : Arr F S2x1600000 .i32) : val_main_v156 (F := F) x1 = d2B x1 := by
  unfold val_main_v156 val_main_v155 val_main_v154 d2B
  rw [v10_eq]

def bB (b : Arr F S128 .f32) : Arr F S50000x128 .f32 :=
  broadcastInDim S50000x128 ![0, 1] bcast_S1x128_S50000x128_0_1 (broadcastInDim S1x128 ![1] bcast_S128_S1x128_1 b)

theorem v46_eq (b : Arr F S128 .f32) : val_main_v46 (F := F) b = bB b := rfl
theorem v84_eq (b : Arr F S128 .f32) : val_main_v84 (F := F) b = bB b := rfl
theorem v122_eq (b : Arr F S128 .f32) : val_main_v122 (F := F) b = bB b := rfl
theorem v160_eq (b : Arr F S128 .f32) : val_main_v160 (F := F) b = bB b := rfl

def zB : Arr F S50000x128 .f32 := broadcastInDim S50000x128 ![] bcast_S_S50000x128 (constant S_ .f32 0x00000000#32)

theorem v37_eq : val_main_v37 (F := F) = zB := rfl
theorem v75_eq : val_main_v75 (F := F) = zB := rfl
theorem v113_eq : val_main_v113 (F := F) = zB := rfl
theorem v151_eq : val_main_v151 (F := F) = zB := rfl
theorem call0_eq : val_main_call0_v0 (F := F) = zB := rfl
theorem call1_eq : val_main_call1_v0 (F := F) = zB := rfl
theorem call2_eq : val_main_call2_v0 (F := F) = zB := rfl
theorem call3_eq : val_main_call3_v0 (F := F) = zB := rfl

theorem v11_eq (x0 : Arr F S50000x128 .f32) (x3 : Arr F S128x128 .f32) : val_main_v11 (F := F) x0 x3 = linS x0 x3 := rfl

theorem v39_eq (x0 : Arr F S50000x128 .f32) (x1 : Arr F S2x1600000 .i32) (x3 : Arr F S128x128 .f32) :
    val_main_v39 (F := F) x0 x1 x3
      = aggS x1 (broadcastInDim S1600000x1 ![0] bcast_S1600000_S1600000x1_0 (coefS x1)) (linS x0 x3) := by
  unfold val_main_v39 val_main_v36 val_main_v33 val_main_v35 val_main_v34 aggS
  rw [v37_eq, v38_eq, v11_eq, v32_eq, v26_eq]
  rfl

theorem v48_eq (x0 : Arr F S50000x128 .f32) (x1 : Arr F S2x1600000 .i32) (x3 : Arr F S128x128 .f32) (x4 : Arr F S128 .f32) :
    val_main_v48 (F := F) x0 x1 x3 x4 = layerR x1 x0 x3 x4 := by
  unfold val_main_v48 val_main_v47 val_main_v44 val_main_v43 layerR
  rw [v39_eq, v11_eq, v42_eq, v46_eq, call0_eq]
  rfl

theorem v49_eq (x0 : Arr F S50000x128 .f32) (x1 : Arr F S2x1600000 .i32) (x3 : Arr F S128x128 .f32) (x4 : Arr F S128 .f32)
    (x5 : Arr F S128x128 .f32) :
    val_main_v49 (F := F) x0 x1 x3 x4 x5 = linS (val_main_v48 x0 x1 x3 x4) x5 := rfl

theorem v77_eq (x0 : Arr F S50000x128 .f32) (x1 : Arr F S2x1600000 .i32) (x3 : Arr F S128x128 .f32) (x4 : Arr F S128 .f32)
    (x5 : Arr F S128x128 .f32) :
    val_main_v77 (F := F) x0 x1 x3 x4 x5
      = aggS x1 (broadcastInDim S1600000x1 ![0] bcast_S1600000_S1600000x1_0 (coefS x1)) (val_main_v49 x0 x1 x3 x4 x5) := by
  unfold val_main_v77 val_main_v74 val_main_v71 val_main_v73 val_main_v72 aggS
  rw [v75_eq, v76_eq, v70_eq, v64_eq]
  rfl

theorem v86_eq (x0 : Arr F S50000x128 .f32) (x1 : Arr F S2x1600000 .i32) (x3 : Arr F S128x128 .f32) (x4 : Arr F S128 .f32)
    (x5 : Arr F S128x128 .f32) (x6 : Arr F S128 .f32) :
    val_main_v86 (F := F) x0 x1 x3 x4 x5 x6 = layerR x1 (val_main_v48 x0 x1 x3 x4) x5 x6 := by
  unfold val_main_v86 val_main_v85 val_main_v82 val_main_v81 layerR
  rw [v77_eq, v49_eq, v80_eq, v84_eq, call1_eq]
  rfl

theorem v87_eq (x0 : Arr F S50000x128 .f32) (x1 : Arr F S2x1600000 .i32) (x3 : Arr F S128x128 .f32) (x4 : Arr F S128 .f32)
    (x5 : Arr F S128x128 .f32) (x6 : Arr F S128 .f32) :
    val_main_v87 (F := F) x0 x1 x3 x4 x5 x6 = linS (val_main_v86 x0 x1 x3 x4 x5 x6) x5 := rfl

theorem v115_eq (x0 : Arr F S50000x128 .f32) (x1 : Arr F S2x1600000 .i32) (x3 : Arr F S128x128 .f32) (x4 : Arr F S128 .f32)
    (x5 : Arr F S128x128 .f32) (x6 : Arr F S128 .f32) :
    val_main_v115 (F := F) x0 x1 x3 x4 x5 x6
      = aggS x1 (broadcastInDim S1600000x1 ![0] bcast_S1600000_S1600000x1_0 (coefS x1)) (val_main_v87 x0 x1 x3 x4 x5 x6) := by
  unfold val_main_v115 val_main_v112 val_main_v109 val_main_v111 val_main_v110 aggS
  rw [v113_eq, v114_eq, v108_eq, v102_eq]
  rfl

theorem v124_eq (x0 : Arr F S50000x128 .f32) (x1 : Arr F S2x1600000 .i32) (x3 : Arr F S128x128 .f32) (x4 : Arr F S128 .f32)
    (x5 : Arr F S128x128 .f32) (x6 : Arr F S128 .f32) :
    val_main_v124 (F := F) x0 x1 x3 x4 x5 x6 = layerR x1 (val_main_v86 x0 x1 x3 x4 x5 x6) x5 x6 := by
  unfold val_main_v124 val_main_v123 val_main_v120 val_main_v119 layerR
  rw [v115_eq, v87_eq, v118_eq, v122_eq, call2_eq]
  rfl

theorem v125_eq (x0 : Arr F S50000x128 .f32) (x1 : Arr F S2x1600000 .i32) (x3 : Arr F S128x128 .f32) (x4 : Arr F S128 .f32)
    (x5 : Arr F S128x128 .f32) (x6 : Arr F S128 .f32) :
    val_main_v125 (F := F) x0 x1 x3 x4 x5 x6 = linS (val_main_v124 x0 x1 x3 x4 x5 x6) x5 := rfl

theorem v153_eq (x0 : Arr F S50000x128 .f32) (x1 : Arr F S2x1600000 .i32) (x3 : Arr F S128x128 .f32) (x4 : Arr F S128 .f32)
    (x5 : Arr F S128x128 .f32) (x6 : Arr F S128 .f32) :
    val_main_v153 (F := F) x0 x1 x3 x4 x5 x6
      = aggS x1 (broadcastInDim S1600000x1 ![0] bcast_S1600000_S1600000x1_0 (coefS x1)) (val_main_v125 x0 x1 x3 x4 x5 x6) := by
  unfold val_main_v153 val_main_v150 val_main_v147 val_main_v149 val_main_v148 aggS
  rw [v151_eq, v152_eq, v146_eq, v140_eq]
  rfl

theorem v162_eq (x0 : Arr F S50000x128 .f32) (x1 : Arr F S2x1600000 .i32) (x3 : Arr F S128x128 .f32) (x4 : Arr F S128 .f32)
    (x5 : Arr F S128x128 .f32) (x6 : Arr F S128 .f32) :
    val_main_v162 (F := F) x0 x1 x3 x4 x5 x6 = layerR x1 (val_main_v124 x0 x1 x3 x4 x5 x6) x5 x6 := by
  unfold val_main_v162 val_main_v161 val_main_v158 val_main_v157 layerR
  rw [v153_eq, v125_eq, v156_eq, v160_eq, call3_eq]
  rfl

theorem v162_net (x0 : Arr F S50000x128 .f32) (x1 : Arr F S2x1600000 .i32) (x3 : Arr F S128x128 .f32) (x4 : Arr F S128 .f32)
    (x5 : Arr F S128x128 .f32) (x6 : Arr F S128 .f32) :
    val_main_v162 (F := F) x0 x1 x3 x4 x5 x6
      = layerR x1 (layerR x1 (layerR x1 (layerR x1 x0 x3 x4) x5 x6) x5 x6) x5 x6 := by
  rw [v162_eq, v124_eq, v86_eq, v48_eq]

theorem v165_eq (x0 : Arr F S50000x128 .f32) (x1 : Arr F S2x1600000 .i32) (x2 : Arr F S50000 .i32) (x3 : Arr F S128x128 .f32)
    (x4 : Arr F S128 .f32) (x5 : Arr F S128x128 .f32) (x6 : Arr F S128 .f32) :
    val_main_v165 (F := F) x0 x1 x2 x3 x4 x5 x6 = poolR x2 (val_main_v162 x0 x1 x3 x4 x5 x6) := rfl

theorem v177_eq (x0 : Arr F S50000x128 .f32) (x1 : Arr F S2x1600000 .i32) (x2 : Arr F S50000 .i32) (x3 : Arr F S128x128 .f32)
    (x4 : Arr F S128 .f32) (x5 : Arr F S128x128 .f32) (x6 : Arr F S128 .f32) (x7 : Arr F S128x1 .f32) (x8 : Arr F S1 .f32) :
    val_main_v177 (F := F) x0 x1 x2 x3 x4 x5 x6 x7 x8 = tailS (val_main_v165 x0 x1 x2 x3 x4 x5 x6) x2 x7 x8 := by
  unfold val_main_v177 val_main_v176 val_main_v175 val_main_v174 val_main_v173 val_main_v172 val_main_v171 val_main_v170
    val_main_call4_v1 val_main_call4_v0 val_main_cst_32 val_main_v169 val_main_v168 val_main_v167 val_main_cst_31
    val_main_v166 val_main_cst_30 tailS
  rfl

end RefNet

theorem ref_is_net (x0 : Arr F S50000x128 .f32) (x1 : Arr F S2x1600000 .i32) (x2 : Arr F S50000 .i32) (x3 : Arr F S128x128 .f32)
    (x4 : Arr F S128 .f32) (x5 : Arr F S128x128 .f32) (x6 : Arr F S128 .f32) (x7 : Arr F S128x1 .f32) (x8 : Arr F S1 .f32) :
    val_main_v177 (F := F) x0 x1 x2 x3 x4 x5 x6 x7 x8 = netR x0 x1 x2 x3 x4 x5 x6 x7 x8 := by
  rw [RefNet.v177_eq, RefNet.v165_eq, RefNet.v162_net]
  rfl

end Cert.Stages

end
-- ==== Proof.LayerEq.lean ====
import proofs.«429942_j15479062135041_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Stages

open Cert.ReferenceIdeal Cert.ReferenceIdeal.Gen Idealize.ShloMosaic Idealize.ShloMosaic.ValueIdx

section Layout
variable {α : Type}

theorem castColE_eq_bcast (c : S1600000.Idx → α) :
    shapeCast S1600000x1 c Cert.KernelIdeal.Gen.shapeCasts_S1600000_S1600000x1
      = broadcastInDim S1600000x1 ![0] bcast_S1600000_S1600000x1_0 c := by
  funext j
  have h1 : (j 1).val < 1 := (j 1).isLt
  refine (shapeCast_apply c Cert.KernelIdeal.Gen.shapeCasts_S1600000_S1600000x1 j
      (fun a => match a with | ⟨0, _⟩ => ⟨(j 0).val, (j 0).isLt⟩) ?_).trans
    (broadcastInDim_apply _ bcast_S1600000_S1600000x1_0 c j
      (fun a => match a with | ⟨0, _⟩ => ⟨(j 0).val, (j 0).isLt⟩) (fun a => match a with
      | ⟨0, _⟩ => by show (j 0).val = if (1600000 : Nat) = 1 then 0 else (j 0).val; rw [if_neg (by decide)])).symm
  rw [Shape.rowMajor_val_one, Shape.rowMajor_val_two]
  show (j 0).val = (j 0).val * 1 + (j 1).val
  omega

theorem castColN_eq_bcast (v : S50000.Idx → α) :
    shapeCast S50000x1 v Cert.KernelIdeal.Gen.shapeCasts_S50000_S50000x1
      = broadcastInDim S50000x1 ![0] bcast_S50000_S50000x1_0 v := by
  funext j
  have h1 : (j 1).val < 1 := (j 1).isLt
  refine (shapeCast_apply v Cert.KernelIdeal.Gen.shapeCasts_S50000_S50000x1 j
      (fun a => match a with | ⟨0, _⟩ => ⟨(j 0).val, (j 0).isLt⟩) ?_).trans
    (broadcastInDim_apply _ bcast_S50000_S50000x1_0 v j
      (fun a => match a with | ⟨0, _⟩ => ⟨(j 0).val, (j 0).isLt⟩) (fun a => match a with
      | ⟨0, _⟩ => by show (j 0).val = if (50000 : Nat) = 1 then 0 else (j 0).val; rw [if_neg (by decide)])).symm
  rw [Shape.rowMajor_val_one, Shape.rowMajor_val_two]
  show (j 0).val = (j 0).val * 1 + (j 1).val
  omega

theorem castRowC_eq_bcast (b : S128.Idx → α) :
    shapeCast S1x128 b Cert.KernelIdeal.Gen.shapeCasts_S128_S1x128
      = broadcastInDim S1x128 ![1] bcast_S128_S1x128_1 b := by
  funext j
  have h0 : (j 0).val < 1 := (j 0).isLt
  refine (shapeCast_apply b Cert.KernelIdeal.Gen.shapeCasts_S128_S1x128 j
      (fun a => match a with | ⟨0, _⟩ => ⟨(j 1).val, (j 1).isLt⟩) ?_).trans
    (broadcastInDim_apply _ bcast_S128_S1x128_1 b j
      (fun a => match a with | ⟨0, _⟩ => ⟨(j 1).val, (j 1).isLt⟩) (fun a => match a with
      | ⟨0, _⟩ => by show (j 1).val = if (128 : Nat) = 1 then 0 else (j 1).val; rw [if_neg (by decide)])).symm
  rw [Shape.rowMajor_val_one, Shape.rowMajor_val_two]
  show (j 1).val = (j 0).val * 128 + (j 1).val
  omega

theorem bcastColN_apply (d : S50000x1.Idx → α) (i : S50000x128.Idx) :
    broadcastInDim S50000x128 ![0, 1] bcast_S50000x1_S50000x128_0_1 d i = d (ix2 (n0 := 50000) (n1 := 1) (i 0) 0) :=
  broadcastInDim_apply _ bcast_S50000x1_S50000x128_0_1 d i (ix2 (n0 := 50000) (n1 := 1) (i 0) 0) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])

theorem bcastRowC_apply (r : S1x128.Idx → α) (i : S50000x128.Idx) :
    broadcastInDim S50000x128 ![0, 1] bcast_S1x128_S50000x128_0_1 r i = r (ix2 (n0 := 1) (n1 := 128) 0 (i 1)) :=
  broadcastInDim_apply _ bcast_S1x128_S50000x128_0_1 r i (ix2 (n0 := 1) (n1 := 128) 0 (i 1)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

end Layout

variable {F : FTy → Type} [FloatOps F]

theorem finS_eq_nest (agg h : Arr F S50000x128 .f32) (d : Arr F S50000x1 .f32) (b : Arr F S1x128 .f32) :
    finS agg h d b =
      maximumf
        (addf (addf agg (mulf h (broadcastInDim S50000x128 ![0, 1] bcast_S50000x1_S50000x128_0_1 d)))
          (broadcastInDim S50000x128 ![0, 1] bcast_S1x128_S50000x128_0_1 b))
        (broadcastInDim S50000x128 ![] bcast_S_S50000x128 (constant S_ .f32 0x00000000#32)) := by
  funext i
  show finS agg h d b i =
    FloatOps.maximumf
      (FloatOps.addf (FloatOps.addf (agg i) (FloatOps.mulf (h i) (broadcastInDim S50000x128 ![0, 1] bcast_S50000x1_S50000x128_0_1 d i)))
        (broadcastInDim S50000x128 ![0, 1] bcast_S1x128_S50000x128_0_1 b i))
      (FloatOps.ofBits .f32 0x00000000#32)
  rw [bcastColN_apply, bcastRowC_apply]
  rfl

theorem layerK_eq_layerR (x1 : Arr F S2x1600000 .i32) (y : Arr F S50000x128 .f32) (W : Arr F S128x128 .f32) (b : Arr F S128 .f32) :
    layerK x1 y W b = layerR x1 y W b := by
  unfold layerK layerR
  rw [finS_eq_nest]
  unfold coefColK d2ColK bRowK
  rw [castColE_eq_bcast, castColN_eq_bcast, castRowC_eq_bcast]

end Cert.Stages

end
-- ==== Proof.PoolEq.lean ====
import proofs.«429942_j15479062135041_1_alg».proof.Proof.Stages
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.Stages

open Cert.ReferenceIdeal Cert.ReferenceIdeal.Gen Idealize.ShloMosaic Idealize.ShloMosaic.ValueIdx

namespace Pool

theorem col_apply (x2 : Arr Ideal S50000 .i32) (n : Fin 50000) (z : Fin 1) :
    broadcastInDim S50000x1 ![0] bcast_S50000_S50000x1_0 x2 (ix2 (n0 := 50000) (n1 := 1) n z) = x2 (ix1 n) := by
  refine broadcastInDim_apply _ _ x2 _ (ix1 n) (fun a => ?_)
  match a with
  | ⟨0, _⟩ => rfl

theorem ids_apply (x2 : Arr Ideal S50000 .i32) (n : Fin 50000) (g : Fin 128) :
    broadcastInDim S50000x128 ![0, 1] bcast_S50000x1_S50000x128_0_1
      (broadcastInDim S50000x1 ![0] bcast_S50000_S50000x1_0 x2) (ix2 (n0 := 50000) (n1 := 128) n g) = x2 (ix1 n) := by
  rw [broadcastInDim_apply _ _ _ _ (ix2 (n0 := 50000) (n1 := 1) n 0) (fun a => by
    match a with
    | ⟨0, _⟩ => rfl
    | ⟨1, _⟩ => rfl)]
  exact col_apply x2 n 0

theorem rows_apply (n : Fin 50000) (g : Fin 128) :
    broadcastInDim S50000x128 ![0, 1] bcast_S1x128_S50000x128_0_1
      (broadcastInDim S1x128 ![1] bcast_S128_S1x128_1 (iotaInDim S128 32 0)) (ix2 (n0 := 50000) (n1 := 128) n g)
      = BitVec.ofNat 32 g.val := by
  rw [broadcastInDim_apply _ _ _ _ (ix2 (n0 := 1) (n1 := 128) 0 g) (fun a => by
    match a with
    | ⟨0, _⟩ => rfl
    | ⟨1, _⟩ => rfl)]
  rw [broadcastInDim_apply _ _ _ _ (ix1 g) (fun a => by
    match a with
    | ⟨0, _⟩ => rfl)]
  rfl

theorem onehotS_apply (x2 : Arr Ideal S50000 .i32) (n : Fin 50000) (g : Fin 128) :
    (onehotS (F := Ideal) x2 (ix2 (n0 := 50000) (n1 := 128) n g) : EReal)
      = if x2 (ix1 n) = BitVec.ofNat 32 g.val then 1 else 0 := by
  unfold onehotS
  show FloatOps.uitofp (F := Ideal) .bf16 (IntOp.cmpi .eq _ _) = _
  rw [ids_apply, rows_apply]
  show (((IntOp.cmpi .eq (x2 (ix1 n)) (BitVec.ofNat 32 g.val)).toNat : ℝ) : EReal) = _
  unfold IntOp.cmpi
  by_cases hx : x2 (ix1 n) = BitVec.ofNat 32 g.val
  · rw [if_pos hx, hx]; simp
  · rw [if_neg hx]
    have : (x2 (ix1 n) == BitVec.ofNat 32 g.val) = false := by simpa using hx
    simp [this]

theorem pool_start0 (idx : IVec S50000x1 32) (n : Fin 50000) (c : Fin 128) :
    scatter_S128x128_S50000x1_S50000x128_1_0_0_1.start (ix2 (n0 := 50000) (n1 := 128) n c) idx 0
      = (idx (ix2 (n0 := 50000) (n1 := 1) n 0)).toInt := by
  unfold ScatterDims.start
  rw [dif_pos (show (0 : Fin 2) ∈ scatter_S128x128_S50000x1_S50000x128_1_0_0_1.scatterDimsToOperandDims from List.mem_singleton.mpr rfl)]
  congr 2
  funext b
  refine Fin.ext ?_
  match b with
  | ⟨0, _⟩ => rfl
  | ⟨1, _⟩ => rfl

theorem pool_start1 (idx : IVec S50000x1 32) (n : Fin 50000) (c : Fin 128) :
    scatter_S128x128_S50000x1_S50000x128_1_0_0_1.start (ix2 (n0 := 50000) (n1 := 128) n c) idx 1 = 0 := by
  unfold ScatterDims.start
  rw [dif_neg (show ¬ (1 : Fin 2) ∈ scatter_S128x128_S50000x1_S50000x128_1_0_0_1.scatterDimsToOperandDims by decide)]

theorem pool_window0 (n : Fin 50000) (c : Fin 128) :
    scatter_S128x128_S50000x1_S50000x128_1_0_0_1.window (ix2 (n0 := 50000) (n1 := 128) n c) 0 = 0 := by
  unfold ScatterDims.window
  rw [dif_neg (show ¬ (0 : Fin 2) ∈ scatter_S128x128_S50000x1_S50000x128_1_0_0_1.sKept by decide)]

theorem pool_window1 (n : Fin 50000) (c : Fin 128) :
    scatter_S128x128_S50000x1_S50000x128_1_0_0_1.window (ix2 (n0 := 50000) (n1 := 128) n c) 1 = c.val := by
  unfold ScatterDims.window
  rw [dif_pos (show (1 : Fin 2) ∈ scatter_S128x128_S50000x1_S50000x128_1_0_0_1.sKept by decide)]
  rfl

theorem pool_resultIdx (idx : IVec S50000x1 32) (n : Fin 50000) (c : Fin 128) (i : S128x128.Idx) :
    scatter_S128x128_S50000x1_S50000x128_1_0_0_1.resultIdx? (ix2 (n0 := 50000) (n1 := 128) n c) idx = some i
      ↔ (idx (ix2 (n0 := 50000) (n1 := 1) n 0)).toInt = ((i 0).val : Int) ∧ c = i 1 := by
  have hi0 : (i 0).val < 128 := idx2_lt0 i
  have hi1 : (i 1).val < 128 := idx2_lt1 i
  have hc : c.val < 128 := c.isLt
  have s0 : S128x128.size 0 = 128 := rfl
  have s1 : S128x128.size 1 = 128 := rfl
  unfold ScatterDims.resultIdx?
  split
  next h =>
    have h0 := h 0
    have h1 := h 1
    rw [pool_start0, pool_window0, s0] at h0
    rw [pool_start1, pool_window1, s1] at h1
    rw [Option.some.injEq, funext_iff, Fin.forall_fin_two]
    simp only [Fin.ext_iff, pool_start0, pool_start1, pool_window0, pool_window1]
    constructor
    · rintro ⟨e0, e1⟩
      exact ⟨by omega, by omega⟩
    · rintro ⟨e0, e1⟩
      exact ⟨by omega, by omega⟩
  next h =>
    simp only [reduceCtorEq, false_iff]
    rintro ⟨e0, e1⟩
    apply h
    rw [Fin.forall_fin_two, pool_start0, pool_window0, s0, pool_start1, pool_window1, s1]
    exact ⟨⟨by omega, by omega⟩, by omega, by omega⟩

theorem toInt_eq_small (w : BitVec 32) (k : Nat) (hk : k < 128) : w.toInt = (k : Int) ↔ w = BitVec.ofNat 32 k := by
  constructor
  · intro e
    apply BitVec.eq_of_toNat_eq
    rw [BitVec.toNat_ofNat]
    rw [BitVec.toInt_eq_toNat_cond] at e
    have := w.isLt
    split at e <;> omega
  · rintro rfl
    rw [BitVec.toInt_eq_toNat_cond, BitVec.toNat_ofNat]
    split <;> omega

theorem pool_lands (x2 : Arr Ideal S50000 .i32) (n : Fin 50000) (c g c' : Fin 128) :
    scatter_S128x128_S50000x1_S50000x128_1_0_0_1.resultIdx? (ix2 (n0 := 50000) (n1 := 128) n c)
        (broadcastInDim S50000x1 ![0] bcast_S50000_S50000x1_0 x2) = some (ix2 (n0 := 128) (n1 := 128) g c')
      ↔ x2 (ix1 n) = BitVec.ofNat 32 g.val ∧ c = c' := by
  have e := pool_resultIdx (broadcastInDim S50000x1 ![0] bcast_S50000_S50000x1_0 x2) n c (ix2 (n0 := 128) (n1 := 128) g c')
  rw [col_apply] at e
  rw [← toInt_eq_small _ _ g.isLt]
  exact e

theorem zeros_apply (i : S128x128.Idx) :
    broadcastInDim S128x128 ![] bcast_S_S128x128 (constant (F := Ideal) S_ .f32 0x00000000#32) i = (0 : EReal) := by
  rw [broadcastInDim_scalar_apply, constant_apply, Ideal.ofBits_zero_f32]

theorem poolK_onehot_at (x2 : Arr Ideal S50000 .i32) (h : Arr Ideal S50000x128 .f32) (g c : Fin 128) :
    poolK (onehotS (F := Ideal) x2) h (ix2 (n0 := 128) (n1 := 128) g c)
      = poolR (F := Ideal) x2 h (ix2 (n0 := 128) (n1 := 128) g c) := by
  unfold poolR
  show ∑ n : Fin 50000, (onehotS (F := Ideal) x2 (ix2 (n0 := 50000) (n1 := 128) n g) : EReal) * (h (ix2 (n0 := 50000) (n1 := 128) n c) : EReal)
    = Ideal.hostScatterAdd scatter_S128x128_S50000x1_S50000x128_1_0_0_1 _ _ h (ix2 (n0 := 128) (n1 := 128) g c)
  unfold Ideal.hostScatterAdd
  rw [zeros_apply, zero_add, Finset.sum_filter, sum_idx2]
  refine Finset.sum_congr rfl (fun n _ => ?_)
  rw [onehotS_apply]
  refine Eq.trans ?_ (Finset.sum_congr rfl (fun x _ => if_congr (pool_lands x2 n x g c) rfl rfl)).symm
  by_cases hx : x2 (ix1 n) = BitVec.ofNat 32 g.val
  · simp only [hx, if_true, true_and, one_mul]
    rw [Finset.sum_ite_eq' Finset.univ c (fun x => (h (ix2 (n0 := 50000) (n1 := 128) n x) : EReal)), if_pos (Finset.mem_univ c)]
  · simp only [hx, if_false, false_and, zero_mul, Finset.sum_const_zero]

end Pool

open Pool in

theorem poolK_onehot (x2 : Arr Ideal S50000 .i32) (h : Arr Ideal S50000x128 .f32) :
    poolK (onehotS (F := Ideal) x2) h = poolR (F := Ideal) x2 h := by
  funext i
  obtain ⟨g, c, rfl⟩ : ∃ g c : Fin 128, i = ix2 (n0 := 128) (n1 := 128) g c := ⟨i 0, i 1, eq_ix2 i⟩
  exact poolK_onehot_at x2 h g c

end Cert.Stages

end
-- ==== Proof.lean ====
import proofs.«429942_j15479062135041_1_alg».proof.Defs
import proofs.«429942_j15479062135041_1_alg».proof.Proof.Gen.Kernel
import proofs.«429942_j15479062135041_1_alg».proof.Proof.Gen.KernelIdeal
import proofs.«429942_j15479062135041_1_alg».proof.Proof.Gen.ReferenceIdeal
import proofs.«429942_j15479062135041_1_alg».proof.Proof.Gen.Pre_finite_inputs
import proofs.«429942_j15479062135041_1_alg».proof.Proof.Gen.ReferenceIdeal.Run
import proofs.«429942_j15479062135041_1_alg».proof.Proof.Gen.ReferenceIdeal.Read
import proofs.«429942_j15479062135041_1_alg».proof.Proof.KRun
import proofs.«429942_j15479062135041_1_alg».proof.Proof.KIRun
import proofs.«429942_j15479062135041_1_alg».proof.Proof.KHost
import proofs.«429942_j15479062135041_1_alg».proof.Proof.RefNet
import proofs.«429942_j15479062135041_1_alg».proof.Proof.LayerEq
import proofs.«429942_j15479062135041_1_alg».proof.Proof.PoolEq
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ =>
  (θ_run Cert.Kernel.defs _ _).mono (fun _ h c => (h c).2) (Cert.Kernel.Hand.run_main (F := Bits) m ρ)

theorem frame_ki : Cert.frame_KernelIdeal := fun m ρ _ =>
  (θ_run Cert.KernelIdeal.defs _ _).mono (fun _ h c => (h c).2) (Cert.KernelIdeal.Hand.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem net_eq (x0 : Cert.Stages.Arr Ideal Cert.ReferenceIdeal.S50000x128 .f32) (x1 : Cert.Stages.Arr Ideal Cert.ReferenceIdeal.S2x1600000 .i32)
    (x2 : Cert.Stages.Arr Ideal Cert.ReferenceIdeal.S50000 .i32) (x3 : Cert.Stages.Arr Ideal Cert.ReferenceIdeal.S128x128 .f32)
    (x4 : Cert.Stages.Arr Ideal Cert.ReferenceIdeal.S128 .f32) (x5 : Cert.Stages.Arr Ideal Cert.ReferenceIdeal.S128x128 .f32)
    (x6 : Cert.Stages.Arr Ideal Cert.ReferenceIdeal.S128 .f32) (x7 : Cert.Stages.Arr Ideal Cert.ReferenceIdeal.S128x1 .f32)
    (x8 : Cert.Stages.Arr Ideal Cert.ReferenceIdeal.S1 .f32) :
    Cert.Stages.netR (F := Ideal) x0 x1 x2 x3 x4 x5 x6 x7 x8
      = Cert.Stages.tailS (F := Ideal)
          (Cert.Stages.poolK (Cert.Stages.onehotS (F := Ideal) x2)
            (Cert.Stages.layerK (F := Ideal) x1 (Cert.Stages.layerK (F := Ideal) x1 (Cert.Stages.layerK (F := Ideal) x1
              (Cert.Stages.layerK (F := Ideal) x1 x0 x3 x4) x5 x6) x5 x6) x5 x6))
          x2 x7 x8 := by
  unfold Cert.Stages.netR
  rw [Cert.Stages.poolK_onehot]
  simp only [Cert.Stages.layerK_eq_layerR]

theorem algebraic : Cert.algebraic_KernelIdeal_ReferenceIdeal := by
  intro m ρ m' ρ' _ hagree
  refine ⟨fun c => Cert.KernelIdeal.Hand.U18 m c Cert.KernelIdeal.main_v108, Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v177_eq, Cert.Stages.ref_is_net, net_eq,
    (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
  exact (Cert.KernelIdeal.Hand.kernel_net m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
